-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_c_0 : IVec S_ 32 := constantI S_ 32 0#32
  let main_v4 : IVec S8192 32 := broadcastInDim S8192 ![] bcast_S_S8192 main_c_0
  let main_v5 : IVec S8192 1 := cmpi .sge main_arg1 main_v4
  let main_c_1 : IVec S_ 1 := constantI S_ 1 1#1
  let main_v6 : IVec S_ 1 := (fun x v => Host.reduce IntOp.andi x v reducesTo_S8192_S_d0 h_S_) main_v5 main_c_1
  let main_v7 : IVec S_ 1 := andi main_v3 main_v6
  let main_c_2 : IVec S_ 32 := constantI S_ 32 8192#32
  let main_v8 : IVec S8192 32 := broadcastInDim S8192 ![] bcast_S_S8192 main_c_2
  let main_v9 : IVec S8192 1 := cmpi .slt main_arg1 main_v8
  let main_c_3 : IVec S_ 1 := constantI S_ 1 1#1
  let main_v10 : IVec S_ 1 := (fun x v => Host.reduce IntOp.andi x v reducesTo_S8192_S_d0 h_S_) main_v9 main_c_3
  let main_v11 : IVec S_ 1 := andi main_v7 main_v10
  main_v11
-- ==== Kernel.lean ====
abbrev S8192x128 : Shape := ⟨2, ![8192, 128]⟩
abbrev S8192 : Shape := ⟨1, ![8192]⟩
abbrev S1024x128 : Shape := ⟨2, ![1024, 128]⟩
abbrev S1024 : Shape := ⟨1, ![1024]⟩
abbrev S1024x1 : Shape := ⟨2, ![1024, 1]⟩
abbrev S_ : Shape := ⟨0, ![]⟩
abbrev S8192x1 : Shape := ⟨2, ![8192, 1]⟩
abbrev S1x8192 : Shape := ⟨2, ![1, 8192]⟩
abbrev S1x1024 : Shape := ⟨2, ![1, 1024]⟩
abbrev S1024x1024 : Shape := ⟨2, ![1024, 1024]⟩

abbrev nBuf : Space → Nat
  | .hbm => 37
  | .vmem => 16
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .bf16⟩
  | .hbm, ⟨3, _⟩ => ⟨S_, .i32⟩
  | .hbm, ⟨4, _⟩ => ⟨S8192, .i32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S8192x1, .i32⟩
  | .hbm, ⟨13, _⟩ => ⟨S_, .i32⟩
  | .hbm, ⟨14, _⟩ => ⟨S8192, .i32⟩
  | .hbm, ⟨15, _⟩ => ⟨S8192, .i32⟩
  | .hbm, ⟨16, _⟩ => ⟨S_, .i32⟩
  | .hbm, ⟨17, _⟩ => ⟨S8192, .i32⟩
  | .hbm, ⟨18, _⟩ => ⟨S8192, .i1⟩
  | .hbm, ⟨19, _⟩ => ⟨S_, .i32⟩
  | .hbm, ⟨20, _⟩ => ⟨S8192, .i32⟩
  | .hbm, ⟨21, _⟩ => ⟨S8192, .i32⟩
  | .hbm, ⟨22, _⟩ => ⟨S8192, .i32⟩
  | .hbm, ⟨23, _⟩ => ⟨S8192x1, .i32⟩
  | .hbm, ⟨24, _⟩ => ⟨S8192, .i32⟩
  | .hbm, ⟨25, _⟩ => ⟨S_, .i32⟩
  | .hbm, ⟨26, _⟩ => ⟨S8192, .i32⟩
  | .hbm, ⟨27, _⟩ => ⟨S8192, .i32⟩
  | .hbm, ⟨28, _⟩ => ⟨S8192, .f32⟩
  | .hbm, ⟨29, _⟩ => ⟨S8192x1, .f32⟩
  | .hbm, ⟨30, _⟩ => ⟨S8192x1, .i32⟩
  | .hbm, ⟨31, _⟩ => ⟨S1x8192, .i32⟩
  | .hbm, ⟨32, _⟩ => ⟨S8192x1, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S8192x128, .bf16⟩
  | .local _ .vmem, ⟨7, _⟩ => ⟨S1024x1, .i32⟩
  | .local _ .vmem, ⟨8, _⟩ => ⟨S1024x1, .i32⟩
  | .local _ .vmem, ⟨9, _⟩ => ⟨S1x8192, .i32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_c_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_c_3 : Ref sig .tc := ⟨.hbm, 16, rfl⟩
abbrev main_v10 : Ref sig .tc := ⟨.hbm, 17, rfl⟩
abbrev main_v11 : Ref sig .tc := ⟨.hbm, 18, rfl⟩
abbrev main_c_4 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_5 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_scratch0 : Ref sig .tc := ⟨.vmem, 14, rfl⟩
abbrev cc1_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 8], ![false, false]⟩

def k1_mult1 (i : grid1.Coords) : BitVec 32 :=
  let arg1 : BitVec 32 := BitVec.ofNat 32 (i 1).val
  let c1024_i32 : BitVec 32 := 1024#32
  let v3 : BitVec 32 := Scalar.muli arg1 c1024_i32
  v3
def k1_off1 (i : grid1.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v7 : Index := Scalar.indexCast v4
  let c0_2 : Index := 0#32
  ![v7.toNat, 0]
def k1_off2 (i : grid1.Coords) : Fin 2 → Nat :=
  let c0_5 : Index := 0#32
  let arg1 : BitVec 32 := BitVec.ofNat 32 (i 1).val
  let c1024_i32 : BitVec 32 := 1024#32
  let v3 : BitVec 32 := Scalar.muli arg1 c1024_i32
  let v4 : BitVec 32 := v3
  let v12 : Index := Scalar.indexCast v4
  ![0, v12.toNat]
def k1_cond2 (i : grid1.Coords) : BitVec 1 :=
  let arg1 : BitVec 32 := BitVec.ofNat 32 (i 1).val
  let c7_i32 : BitVec 32 := 7#32
  let v47 : BitVec 1 := Scalar.cmpi .eq arg1 c7_i32
  let v48 : BitVec 32 := Scalar.extui v47
  let c0_i32_20 : BitVec 32 := 0#32
  let v49 : BitVec 1 := Scalar.cmpi .ne v48 c0_i32_20
  v49

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S8192x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x8192 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1024x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S1024x128_S1024x128_0_0 : ∀ a, (![0, 0] : Fin 2 → Nat) a + S1024x128.size a ≤ S1024x128.size a
  h_S1024x128 : 0 < S1024x128.numel
  reduces_S1024x128_S1024 : S1024x128.Reduces [1] S1024
  shapeCasts_S1024_S1024x1 : S1024.ShapeCasts S1024x1
  broadcasts_S1024x1_S1024x128 : S1024x1.Broadcasts S1024x128
  bitsLt_bf16_f32 : FTy.bits .bf16 < FTy.bits .f32
  packedbf16_S1024x128_S1024x128_0_0 : (Rect.unit (s := S1024x128) ![0, 0] S1024x128.size inb_S1024x128_S1024x128_0_0).PackedRows (EltTy.packing .bf16)
  bcast_S_S8192 : S_.BroadcastsInDim S8192 (![] : Fin 0 → Fin S8192.rank)
  bcast_S8192_S8192x1_0 : S8192.BroadcastsInDim S8192x1 (![0] : Fin 1 → Fin S8192x1.rank)
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x128_S1024x128 : S1024x128.ShapeCasts S1024x128
  h_S1x1024 : 0 < S1x1024.numel
  shapeCasts_S1x1024_S1x1024 : S1x1024.ShapeCasts S1x1024
  iota_S1024x1024_d0_w32 : S1024x1024.Iotas .tc 32 [0]
  iota_S1024x1024_d1_w32 : S1024x1024.Iotas .tc 32 [1]
  broadcasts_S1024x1_S1024x1024 : S1024x1.Broadcasts S1024x1024
  broadcasts_S1x1024_S1024x1024 : S1x1024.Broadcasts S1024x1024
  reduces_S1024x1024_S1024 : S1024x1024.Reduces [1] S1024
  reducesTo_S8192x1_S_d0_1 : S8192x1.ReducesTo [0, 1] S_
  h_S_ : 0 < S_.numel
  scatter_S8192_S8192x1_S8192_n_0_0_1_wf : ScatterDims.WF S8192 S8192x1 S8192 [] [0] [0] 1
  gather_S8192_S8192x1_S8192_n_0_n_n_0_1_1_wf : GatherDims.WF S8192 S8192x1 S8192 [] [0] [] [0] [] 1 ![1]
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .bf16 = 32 ∨ (Rect.block (s := S8192x128) S1024x128.size (cc0_transform_1 i) (hinb0_1 i)).WholeWords (EltTy.packing .bf16)
  hrank1 : 0 < grid1.rank
  k1_mult1_dvd : ∀ i : grid1.Coords, 128 ∣ (k1_mult1 i).toNat
  k1_off1_inb : ∀ i : grid1.Coords, ∀ a, (k1_off1 i) a + S1024x128.size a ≤ S8192x128.size a
  k1_off2_inb : ∀ i : grid1.Coords, ∀ a, (k1_off2 i) a + S1x1024.size a ≤ S1x8192.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .bf16 = 32 ∨ (Rect.block (s := S8192x128) S1024x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x128.size a
  hwx1_1 : ∀ i : grid1.Coords, EltTy.bits .bf16 = 32 ∨ (Rect.block (s := S8192x128) S8192x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .i32 = 32 ∨ (Rect.block (s := S8192x1) S1024x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8192.size a ≤ S1x8192.size a
  hwx1_3 : ∀ i : grid1.Coords, EltTy.bits .i32 = 32 ∨ (Rect.block (s := S1x8192) S1x8192.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S8192x1.size a
  hwx1_4 : ∀ i : grid1.Coords, EltTy.bits .f32 = 32 ∨ (Rect.block (s := S8192x1) S1024x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1.size a ≤ S8192x1.size a
  hwx1_5 : ∀ i : grid1.Coords, EltTy.bits .f32 = 32 ∨ (Rect.block (s := S8192x1) S1024x1.size (cc1_transform_5 i) (hinb1_5 i)).WholeWords (EltTy.packing .f32)

variable [Facts₀]

def scatter_S8192_S8192x1_S8192_n_0_0_1 : ScatterDims S8192 S8192x1 S8192 where
  updateWindowDims := []
  insertedWindowDims := [0]
  scatterDimsToOperandDims := [0]
  indexVectorDim := 1
  wf := scatter_S8192_S8192x1_S8192_n_0_0_1_wf
def gather_S8192_S8192x1_S8192_n_0_n_n_0_1_1 : GatherDims S8192 S8192x1 S8192 where
  offsetDims := []
  collapsedSliceDims := [0]
  operandBatchingDims := []
  startIndicesBatchingDims := []
  startIndexMap := [0]
  indexVectorDim := 1
  sliceSizes := ![1]
  wf := gather_S8192_S8192x1_S8192_n_0_n_n_0_1_1_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S8192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x8192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1024x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v23) S1024x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S128x8192 : Shape := ⟨2, ![128, 8192]⟩
abbrev S8192x8192 : Shape := ⟨2, ![8192, 8192]⟩
abbrev S1x8192 : Shape := ⟨2, ![1, 8192]⟩

abbrev nBuf : Space → Nat
  | .hbm => 72
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x128, .f32⟩
  | .hbm, ⟨11, _⟩ => ⟨S8192x128, .f32⟩
  | .hbm, ⟨12, _⟩ => ⟨S128x8192, .f32⟩
  | .hbm, ⟨13, _⟩ => ⟨S8192x8192, .f32⟩
  | .hbm, ⟨14, _⟩ => ⟨S8192x1, .i32⟩
  | .hbm, ⟨15, _⟩ => ⟨S1x8192, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S8192x8192, .i32⟩
  | .hbm, ⟨20, _⟩ => ⟨S8192x8192, .i32⟩
  | .hbm, ⟨21, _⟩ => ⟨S_, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S8192x8192, .i1⟩
  | .hbm, ⟨26, _⟩ => ⟨S8192x8192, .i1⟩
  | .hbm, ⟨27, _⟩ => ⟨S8192x8192, .i1⟩
  | .hbm, ⟨28, _⟩ => ⟨S8192x8192, .i32⟩
  | .hbm, ⟨29, _⟩ => ⟨S_, .i32⟩
  | .hbm, ⟨30, _⟩ => ⟨S8192, .i32⟩
  | .hbm, ⟨31, _⟩ => ⟨S_, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192, .f32⟩
  | .hbm, ⟨37, _⟩ => ⟨S_, .i32⟩
  | .hbm, ⟨38, _⟩ => ⟨S8192, .i32⟩
  | .hbm, ⟨39, _⟩ => ⟨S8192, .i1⟩
  | .hbm, ⟨40, _⟩ => ⟨S_, .i32⟩
  | .hbm, ⟨41, _⟩ => ⟨S8192, .i32⟩
  | .hbm, ⟨42, _⟩ => ⟨S8192, .i32⟩
  | .hbm, ⟨43, _⟩ => ⟨S8192, .f32⟩
  | .hbm, ⟨44, _⟩ => ⟨S8192, .f32⟩
  | .hbm, ⟨45, _⟩ => ⟨S_, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S_, .i1⟩
  | .hbm, ⟨50, _⟩ => ⟨S8192, .i1⟩
  | .hbm, ⟨51, _⟩ => ⟨S_, .f32⟩
  | .hbm, ⟨52, _⟩ => ⟨S_, .f32⟩
  | .hbm, ⟨53, _⟩ => ⟨S8192x8192, .f32⟩
  | .hbm, ⟨54, _⟩ => ⟨S8192x8192, .f32⟩
  | .hbm, ⟨55, _⟩ => ⟨S_, .f32⟩
  | .hbm, ⟨56, _⟩ => ⟨S8192, .f32⟩
  | .hbm, ⟨57, _⟩ => ⟨S_, .f32⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S8192, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_c_1 : Ref sig .tc := ⟨.hbm, 29, rfl⟩
abbrev main_v24 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_c_4 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_call1_v0 : Ref sig .tc := ⟨.hbm, 46, rfl⟩
abbrev main_call1_v1 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_cst_8 : Ref sig .tc := ⟨.hbm, 51, rfl⟩
abbrev main_call2_v0 : Ref sig .tc := ⟨.hbm, 52, rfl⟩
abbrev main_call2_v1 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_cst_10 : Ref sig .tc := ⟨.hbm, 57, rfl⟩
abbrev main_call3_v0 : Ref sig .tc := ⟨.hbm, 58, rfl⟩
abbrev main_call3_v1 : Ref sig .tc := ⟨.hbm, 59, rfl⟩
abbrev main_v37 : Ref sig .tc := ⟨.hbm, 60, rfl⟩
abbrev main_cst_11 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_call4_cst : Ref sig .tc := ⟨.hbm, 65, rfl⟩
abbrev main_call4_v0 : Ref sig .tc := ⟨.hbm, 66, rfl⟩
abbrev main_v41 : Ref sig .tc := ⟨.hbm, 67, rfl⟩
abbrev main_cst_12 : Ref sig .tc := ⟨.hbm, 68, rfl⟩
abbrev main_v42 : Ref sig .tc := ⟨.hbm, 69, rfl⟩
abbrev main_cst_13 : Ref sig .tc := ⟨.hbm, 70, rfl⟩
abbrev main_v43 : Ref sig .tc := ⟨.hbm, 71, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  natLt_1_32 : 1 < 32
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.K.Norm.lean ====
import proofs.«429060_j8641474200296_2_alg».proof.Proof.Gen.Kernel.Launch
import proofs.«429060_j8641474200296_2_alg».proof.Proof.Gen.Kernel.Skeleton
import proofs.«429060_j8641474200296_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1024x128 := Rect.unit (s := S1024x128) ![0, 0] S1024x128.size inb_S1024x128_S1024x128_0_0

def out0_1 (x0 : Vec F S1024x128 .f32) : Vec F S1024x128 .bf16 :=
  View.canon [⟨r0_0, k0_pay1 (View.ld x0 r0_0)⟩]

set_option maxHeartbeats 1000000 in
-- One piece that tiles the whole index set covers it, so reading the writes back gives the canonical view.
theorem sound_kernel0 (c : Dev nD) (E : Set ℕ) (i : grid0.Coords) (arg1 : Memref sig .tc .vmem S1024x128 .f32) (harg1 : arg1.IsWhole) (arg2 : Memref sig .tc .vmem S1024x128 .bf16) (harg2 : arg2.IsWhole)
    (x0 : Vec F S1024x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (View.cover_of_tiled [⟨r0_0, _⟩] S1024x128.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem body_obligation0 (c : Dev nD) : BodyObligation (dat0 (F := F) V c) (defs₀ (F := F)) Variants.none () Set.univ := fun t => by
  rw [bigSep_W0, bigSep_W0]
  dsimp only
  change _ ⊢ wp frame _ Set.univ (bodyAt0 t) _
  unfold bodyAt0
  simp only [before0_0]
  rw [show (dat0 V c).Φ t.succ = (dat0 V c).Φ t.castSucc from rfl,
    show (dat0 V c).owesAt () t.succ = (dat0 V c).owesAt () t.castSucc from rfl, after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  iframe

end Cert.Kernel.Hand

end
-- ==== Proof.K.TripBase.lean ====
import proofs.«429060_j8641474200296_2_alg».proof.Proof.Gen.Kernel.Launch
import proofs.«429060_j8641474200296_2_alg».proof.Proof.Gen.Kernel.Skeleton
import proofs.«429060_j8641474200296_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

section Blocks
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

end Blocks

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := k1_cond2 i = 1#1

theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel

theorem liveAt1_1 : ∀ t : Fin cfg1.N, cfg1.idle 1 (grid1.coords t) = false := by decide +kernel

theorem liveAt1_2 : ∀ t : Fin cfg1.N, cfg1.idle 2 (grid1.coords t) = false := by decide +kernel

theorem liveAt1_3 : ∀ t : Fin cfg1.N, cfg1.idle 3 (grid1.coords t) = false := by decide +kernel

theorem liveAt1_4 : ∀ t : Fin cfg1.N, cfg1.idle 4 (grid1.coords t) = false := by decide +kernel

theorem idleAt1_5_A : ∀ t : Fin cfg1.N, cond1_0 (grid1.coords t) → ¬cond1_1 (grid1.coords t) → cfg1.idle 5 (grid1.coords t) = true := by decide +kernel

theorem noFlush1_5_A : ∀ t : Fin cfg1.N, cond1_0 (grid1.coords t) → ¬cond1_1 (grid1.coords t) → (cfg1.win 5).flush t = false := by decide +kernel

theorem idleAt1_5_B : ∀ t : Fin cfg1.N, ¬cond1_0 (grid1.coords t) → ¬cond1_1 (grid1.coords t) → cfg1.idle 5 (grid1.coords t) = true := by decide +kernel

theorem noFlush1_5_B : ∀ t : Fin cfg1.N, ¬cond1_0 (grid1.coords t) → ¬cond1_1 (grid1.coords t) → (cfg1.win 5).flush t = false := by decide +kernel

theorem liveAt1_5_C : ∀ t : Fin cfg1.N, ¬cond1_0 (grid1.coords t) → cond1_1 (grid1.coords t) → cfg1.idle 5 (grid1.coords t) = false := by decide +kernel

abbrev VO1_5 : View sig .tc .vmem S1024x1 .f32 := (Memref.whole cc1_stg5_0 : Memref sig .tc .vmem S1024x1 .f32).view

abbrev ms1_0 (t : Fin cfg1.N) : Memref sig .tc .vmem S1024x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x8192 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1 .f32 := win1_5.stage (cfg1.slots t 5)
abbrev hs1_5 (t : Fin cfg1.N) : (ms1_5 t).IsWhole := hstage1_5 ((cfg1.slots t 5).cast nbuf1_5)

abbrev scM1_0 : Memref sig .tc .vmem S1024x1 .f32 := Memref.whole cc1_scratch0
abbrev scM1_1 : Memref sig .tc .vmem S1024x1 .f32 := Memref.whole cc1_scratch1

abbrev VS1_0 : View sig .tc .vmem S1024x1 .f32 := scM1_0.view
abbrev VS1_1 : View sig .tc .vmem S1024x1 .f32 := scM1_1.view

/-- The body's eight memref operands, each whole. -/
structure Ops where
  a2 : Memref sig .tc .vmem S1024x128 .bf16
  h2 : a2.IsWhole
  a3 : Memref sig .tc .vmem S8192x128 .bf16
  h3 : a3.IsWhole
  a4 : Memref sig .tc .vmem S1024x1 .i32
  h4 : a4.IsWhole
  a5 : Memref sig .tc .vmem S1x8192 .i32
  h5 : a5.IsWhole
  a6 : Memref sig .tc .vmem S1024x1 .f32
  h6 : a6.IsWhole
  a7 : Memref sig .tc .vmem S1024x1 .f32
  h7 : a7.IsWhole
  a8 : Memref sig .tc .vmem S1024x1 .f32
  h8 : a8.IsWhole
  a9 : Memref sig .tc .vmem S1024x1 .f32
  h9 : a9.IsWhole

/-- The operands the body is called with at point `t`. -/
abbrev opsAt (t : Fin cfg1.N) : Ops :=
  ⟨ms1_0 t, hs1_0 t, ms1_1 t, hs1_1 t, ms1_2 t, hs1_2 t, ms1_3 t, hs1_3 t, ms1_4 t, hs1_4 t, ms1_5 t, hs1_5 t,
    scM1_0, Memref.isWhole_whole _, scM1_1, Memref.isWhole_whole _⟩

/-- The region's untouched rest, the two scratches in the states `s0` and `s1`. -/
def rest1 (c : Dev nD) (s0 s1 : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ s0 ∗ s1) ∗ (∃ r, prngReg c r))

theorem PhiA1_eq (c : Dev nD) :
    (Pipeline.ΦA spec1 c : sProp 𝕄)
      = rest1 c iprop(∃ d, owns (c : Thread nD τ) scM1_0 fullShare d) iprop(∃ d, owns (c : Thread nD τ) scM1_1 fullShare d) := by
  unfold Pipeline.ΦA rest1; rw [scopedRest1_eq]; simp only [scM1_0, scM1_1, owns_whole]; try rfl

end Cert.Kernel.Hand

end
-- ==== Proof.K.TripRunA.lean ====
import proofs.«429060_j8641474200296_2_alg».proof.Proof.K.TripBase
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 1000000 in
/-- Case A of the body (column step 0): both running values are reset, then the tile is accumulated; nothing is stored. -/
noncomputable def kernelRun1_A (c : Dev nD) (i : grid1.Coords) (o : Ops) (hc0 : cond1_0 i) (hc1 : ¬cond1_1 i)
    (x0 : Vec F S1024x128 .bf16) (x1 : Vec F S8192x128 .bf16) (x2 : Vec F S1024x1 .i32) (x3 : Vec F S1x8192 .i32) (x4 : Vec F S1024x1 .f32) :
    Σ' (L5 : List (View.Piece (Elt F) S1024x1 .f32)) (LS0 : List (View.Piece (Elt F) S1024x1 .f32)), { LS1 : List (View.Piece (Elt F) S1024x1 .f32) //
      ∀ (xi5 : Vec F S1024x1 .f32) (E : Set ℕ) (K : PUnit → sProp 𝕄),
        iprop(owns (c : Thread nD τ) o.a2 fullShare x0 ∗ owns (c : Thread nD τ) o.a3 fullShare x1 ∗ owns (c : Thread nD τ) o.a4 fullShare x2 ∗ owns (c : Thread nD τ) o.a5 fullShare x3 ∗ owns (c : Thread nD τ) o.a6 fullShare x4 ∗ owns (c : Thread nD τ) o.a7 fullShare xi5 ∗ (∃ d, owns (c : Thread nD τ) o.a8 fullShare d) ∗ (∃ d, owns (c : Thread nD τ) o.a9 fullShare d)
            ∗ (iprop(owns (c : Thread nD τ) o.a2 fullShare x0 ∗ owns (c : Thread nD τ) o.a3 fullShare x1 ∗ owns (c : Thread nD τ) o.a4 fullShare x2 ∗ owns (c : Thread nD τ) o.a5 fullShare x3 ∗ owns (c : Thread nD τ) o.a6 fullShare x4 ∗ owns (c : Thread nD τ) o.a7 fullShare xi5 ∗ (∃ f, o.a8.view.loc (c : Thread nD τ) ↦[o.a8.view.set]{fullShare} o.a8.view.writes (Elt F) f LS0) ∗ (∃ f, o.a9.view.loc (c : Thread nD τ) ↦[o.a9.view.set]{fullShare} o.a9.view.writes (Elt F) f LS1)) -∗ K ⟨⟩))
          ⊢ wp frame (wpE (defs₀ (F := F)) Variants.none c none) E (cc1__triplet_kernel i o.a2 o.h2 o.a3 o.h3 o.a4 o.h4 o.a5 o.h5 o.a6 o.h6 o.a7 o.h7 o.a8 o.h8 o.a9 o.h9) K } := by
  refine ⟨[], ?_, ?_, fun xi5 E K => ?run⟩
  case run =>
    simp only [cc1__triplet_kernel_eq_skeleton]; unfold cc1__triplet_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := o.h2.eq_unread hf0; obtain rfl := o.h3.eq_unread hf1; obtain rfl := o.h4.eq_unread hf2; obtain rfl := o.h5.eq_unread hf3; obtain rfl := o.h6.eq_unread hf4; obtain rfl := o.h7.eq_unread hf5
    sl_exec (disch := first | exact hc0 | exact hc1)
    sl_step
    iapply Hk
    isplitl [H0]
    · iexists _; isplitr; · ipureintro; exact o.h2.read_unread _
      iexact H0
    isplitl [H1]
    · iexists _; isplitr; · ipureintro; exact o.h3.read_unread _
      iexact H1
    isplitl [H2]
    · iexists _; isplitr; · ipureintro; exact o.h4.read_unread _
      iexact H2
    isplitl [H3]
    · iexists _; isplitr; · ipureintro; exact o.h5.read_unread _
      iexact H3
    isplitl [H4]
    · iexists _; isplitr; · ipureintro; exact o.h6.read_unread _
      iexact H4
    isplitl [H5]
    · iexists _; isplitr; · ipureintro; exact o.h7.read_unread _
      iexact H5
    isplitl [HS0]; · iexists _; iexact HS0
    iexists _; iexact HS1

end Cert.Kernel.Hand

end
-- ==== Proof.K.TripRunB.lean ====
import proofs.«429060_j8641474200296_2_alg».proof.Proof.K.TripRunA
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 1000000 in
/-- Case B (column steps 1 to 6): the tile is accumulated into the carried values; nothing is stored. -/
noncomputable def kernelRun1_B (c : Dev nD) (i : grid1.Coords) (o : Ops) (hc0 : ¬cond1_0 i) (hc1 : ¬cond1_1 i)
    (x0 : Vec F S1024x128 .bf16) (x1 : Vec F S8192x128 .bf16) (x2 : Vec F S1024x1 .i32) (x3 : Vec F S1x8192 .i32) (x4 : Vec F S1024x1 .f32) (xs0 : Vec F S1024x1 .f32) (xs1 : Vec F S1024x1 .f32) :
    Σ' (L5 : List (View.Piece (Elt F) S1024x1 .f32)) (LS0 : List (View.Piece (Elt F) S1024x1 .f32)), { LS1 : List (View.Piece (Elt F) S1024x1 .f32) //
      ∀ (xi5 : Vec F S1024x1 .f32) (E : Set ℕ) (K : PUnit → sProp 𝕄),
        iprop(owns (c : Thread nD τ) o.a2 fullShare x0 ∗ owns (c : Thread nD τ) o.a3 fullShare x1 ∗ owns (c : Thread nD τ) o.a4 fullShare x2 ∗ owns (c : Thread nD τ) o.a5 fullShare x3 ∗ owns (c : Thread nD τ) o.a6 fullShare x4 ∗ owns (c : Thread nD τ) o.a7 fullShare xi5 ∗ owns (c : Thread nD τ) o.a8 fullShare xs0 ∗ owns (c : Thread nD τ) o.a9 fullShare xs1
            ∗ (iprop(owns (c : Thread nD τ) o.a2 fullShare x0 ∗ owns (c : Thread nD τ) o.a3 fullShare x1 ∗ owns (c : Thread nD τ) o.a4 fullShare x2 ∗ owns (c : Thread nD τ) o.a5 fullShare x3 ∗ owns (c : Thread nD τ) o.a6 fullShare x4 ∗ owns (c : Thread nD τ) o.a7 fullShare xi5 ∗ (∃ f, o.a8.view.loc (c : Thread nD τ) ↦[o.a8.view.set]{fullShare} o.a8.view.writes (Elt F) f LS0) ∗ (∃ f, o.a9.view.loc (c : Thread nD τ) ↦[o.a9.view.set]{fullShare} o.a9.view.writes (Elt F) f LS1)) -∗ K ⟨⟩))
          ⊢ wp frame (wpE (defs₀ (F := F)) Variants.none c none) E (cc1__triplet_kernel i o.a2 o.h2 o.a3 o.h3 o.a4 o.h4 o.a5 o.h5 o.a6 o.h6 o.a7 o.h7 o.a8 o.h8 o.a9 o.h9) K } := by
  refine ⟨[], ?_, ?_, fun xi5 E K => ?run⟩
  case run =>
    simp only [cc1__triplet_kernel_eq_skeleton]; unfold cc1__triplet_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := o.h2.eq_unread hf0; obtain rfl := o.h3.eq_unread hf1; obtain rfl := o.h4.eq_unread hf2; obtain rfl := o.h5.eq_unread hf3; obtain rfl := o.h6.eq_unread hf4; obtain rfl := o.h7.eq_unread hf5; obtain rfl := o.h8.eq_unread hfs0; obtain rfl := o.h9.eq_unread hfs1
    sl_exec (disch := first | exact hc0 | exact hc1)
    sl_step
    iapply Hk
    isplitl [H0]
    · iexists _; isplitr; · ipureintro; exact o.h2.read_unread _
      iexact H0
    isplitl [H1]
    · iexists _; isplitr; · ipureintro; exact o.h3.read_unread _
      iexact H1
    isplitl [H2]
    · iexists _; isplitr; · ipureintro; exact o.h4.read_unread _
      iexact H2
    isplitl [H3]
    · iexists _; isplitr; · ipureintro; exact o.h5.read_unread _
      iexact H3
    isplitl [H4]
    · iexists _; isplitr; · ipureintro; exact o.h6.read_unread _
      iexact H4
    isplitl [H5]
    · iexists _; isplitr; · ipureintro; exact o.h7.read_unread _
      iexact H5
    isplitl [HS0]; · iexists _; iexact HS0
    iexists _; iexact HS1

end Cert.Kernel.Hand

end
-- ==== Proof.K.TripRunC.lean ====
import proofs.«429060_j8641474200296_2_alg».proof.Proof.K.TripRunB
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 1000000 in
/-- Case C (column step 7): the tile is accumulated, then the loss block is stored from the finished values and the counts. -/
noncomputable def kernelRun1_C (c : Dev nD) (i : grid1.Coords) (o : Ops) (hc0 : ¬cond1_0 i) (hc1 : cond1_1 i)
    (x0 : Vec F S1024x128 .bf16) (x1 : Vec F S8192x128 .bf16) (x2 : Vec F S1024x1 .i32) (x3 : Vec F S1x8192 .i32) (x4 : Vec F S1024x1 .f32) (xs0 : Vec F S1024x1 .f32) (xs1 : Vec F S1024x1 .f32) :
    Σ' (L5 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) o.a2 fullShare x0 ∗ owns (c : Thread nD τ) o.a3 fullShare x1 ∗ owns (c : Thread nD τ) o.a4 fullShare x2 ∗ owns (c : Thread nD τ) o.a5 fullShare x3 ∗ owns (c : Thread nD τ) o.a6 fullShare x4 ∗ (∃ d, owns (c : Thread nD τ) o.a7 fullShare d) ∗ owns (c : Thread nD τ) o.a8 fullShare xs0 ∗ owns (c : Thread nD τ) o.a9 fullShare xs1
            ∗ (iprop(owns (c : Thread nD τ) o.a2 fullShare x0 ∗ owns (c : Thread nD τ) o.a3 fullShare x1 ∗ owns (c : Thread nD τ) o.a4 fullShare x2 ∗ owns (c : Thread nD τ) o.a5 fullShare x3 ∗ owns (c : Thread nD τ) o.a6 fullShare x4 ∗ (∃ f, o.a7.view.loc (c : Thread nD τ) ↦[o.a7.view.set]{fullShare} o.a7.view.writes (Elt F) f L5) ∗ (∃ f, o.a8.view.loc (c : Thread nD τ) ↦[o.a8.view.set]{fullShare} o.a8.view.writes (Elt F) f LS0) ∗ (∃ f, o.a9.view.loc (c : Thread nD τ) ↦[o.a9.view.set]{fullShare} o.a9.view.writes (Elt F) f LS1)) -∗ K ⟨⟩))
          ⊢ wp frame (wpE (defs₀ (F := F)) Variants.none c none) E (cc1__triplet_kernel i o.a2 o.h2 o.a3 o.h3 o.a4 o.h4 o.a5 o.h5 o.a6 o.h6 o.a7 o.h7 o.a8 o.h8 o.a9 o.h9) K } := by
  refine ⟨?_, ?_, ?_, fun E K => ?run⟩
  case run =>
    simp only [cc1__triplet_kernel_eq_skeleton]; unfold cc1__triplet_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := o.h2.eq_unread hf0; obtain rfl := o.h3.eq_unread hf1; obtain rfl := o.h4.eq_unread hf2; obtain rfl := o.h5.eq_unread hf3; obtain rfl := o.h6.eq_unread hf4; obtain rfl := o.h8.eq_unread hfs0; obtain rfl := o.h9.eq_unread hfs1
    sl_exec (disch := first | exact hc0 | exact hc1)
    sl_step
    iapply Hk
    isplitl [H0]
    · iexists _; isplitr; · ipureintro; exact o.h2.read_unread _
      iexact H0
    isplitl [H1]
    · iexists _; isplitr; · ipureintro; exact o.h3.read_unread _
      iexact H1
    isplitl [H2]
    · iexists _; isplitr; · ipureintro; exact o.h4.read_unread _
      iexact H2
    isplitl [H3]
    · iexists _; isplitr; · ipureintro; exact o.h5.read_unread _
      iexact H3
    isplitl [H4]
    · iexists _; isplitr; · ipureintro; exact o.h6.read_unread _
      iexact H4
    isplitl [H5]; · iexists _; iexact H5
    isplitl [HS0]; · iexists _; iexact HS0
    iexists _; iexact HS1

end Cert.Kernel.Hand

end
-- ==== Proof.K.TripDat.lean ====
import proofs.«429060_j8641474200296_2_alg».proof.Proof.K.TripRunC
import proofs.«429060_j8641474200296_2_alg».proof.Proof.Gen.Kernel.Launch
import proofs.«429060_j8641474200296_2_alg».proof.Proof.Gen.Kernel.Skeleton
import proofs.«429060_j8641474200296_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

/-- Pieces written over junk and read back through `v`: what a covered buffer holds. -/
def rd (v : View sig .tc .vmem S1024x1 .f32) (L : List (View.Piece (Elt F) S1024x1 .f32)) : Vec F S1024x1 .f32 :=
  v.read (Elt F) (v.writes (Elt F) v.junk L)

/-- What a run's pieces leave in the output window's buffer, the running sum and the running maximum. -/
def outs3 (L5 LS0 LS1 : List (View.Piece (Elt F) S1024x1 .f32)) : Vec F S1024x1 .f32 × Vec F S1024x1 .f32 × Vec F S1024x1 .f32 :=
  (rd VO1_5 L5, rd VS1_0 LS0, rd VS1_1 LS1)

/-- Every index of the block lies in some piece. -/
abbrev Covers (L : List (View.Piece (Elt F) S1024x1 .f32)) : Prop := ∀ y : S1024x1.Idx, ∃ p ∈ L, y ∈ p.1.set

section Cases
variable (c : Dev nD) (i : grid1.Coords) (o : Ops) (x0 : Vec F S1024x128 .bf16) (x1 : Vec F S8192x128 .bf16)
  (x2 : Vec F S1024x1 .i32) (x3 : Vec F S1x8192 .i32) (x4 : Vec F S1024x1 .f32) (xs0 xs1 : Vec F S1024x1 .f32)

/-- Each case stores whole blocks, so its pieces cover every buffer it writes. -/
theorem coverA (hc0 : cond1_0 i) (hc1 : ¬cond1_1 i) :
    Covers (kernelRun1_A c i o hc0 hc1 x0 x1 x2 x3 x4).2.1 ∧ Covers (kernelRun1_A c i o hc0 hc1 x0 x1 x2 x3 x4).2.2.1 :=
  ⟨View.cover_of_tiledL _ S1024x1.size (by sl_kernel_rfl), View.cover_of_tiledL _ S1024x1.size (by sl_kernel_rfl)⟩
theorem coverB (hc0 : ¬cond1_0 i) (hc1 : ¬cond1_1 i) :
    Covers (kernelRun1_B c i o hc0 hc1 x0 x1 x2 x3 x4 xs0 xs1).2.1 ∧ Covers (kernelRun1_B c i o hc0 hc1 x0 x1 x2 x3 x4 xs0 xs1).2.2.1 :=
  ⟨View.cover_of_tiledL _ S1024x1.size (by sl_kernel_rfl), View.cover_of_tiledL _ S1024x1.size (by sl_kernel_rfl)⟩
theorem coverC (hc0 : ¬cond1_0 i) (hc1 : cond1_1 i) :
    Covers (kernelRun1_C c i o hc0 hc1 x0 x1 x2 x3 x4 xs0 xs1).1 ∧ Covers (kernelRun1_C c i o hc0 hc1 x0 x1 x2 x3 x4 xs0 xs1).2.1
      ∧ Covers (kernelRun1_C c i o hc0 hc1 x0 x1 x2 x3 x4 xs0 xs1).2.2.1 :=
  ⟨View.cover_of_tiledL _ S1024x1.size (by sl_kernel_rfl), View.cover_of_tiledL _ S1024x1.size (by sl_kernel_rfl),
    View.cover_of_tiledL _ S1024x1.size (by sl_kernel_rfl)⟩

end Cases

section Points
variable (c : Dev nD) (t : Fin cfg1.N)

/-- Each case's run at point `t`: the point's operands and blocks, B and C over the carried values `s0`, `s1`. -/
abbrev runAtA (h0 : t.val % 8 = 0) (h1 : ¬t.val % 8 = 7) :=
  kernelRun1_A c (grid1.coords t) (opsAt t) ((hcond1_0 t).mpr h0) (fun h => h1 ((hcond1_1 t).mp h)) (iblk1 V c 0 t) (iblk1 V c 1 t) (iblk1 V c 2 t) (iblk1 V c 3 t) (iblk1 V c 4 t)
abbrev runAtB (h0 : ¬t.val % 8 = 0) (h1 : ¬t.val % 8 = 7) (s0 s1 : Vec F S1024x1 .f32) :=
  kernelRun1_B c (grid1.coords t) (opsAt t) (fun h => h0 ((hcond1_0 t).mp h)) (fun h => h1 ((hcond1_1 t).mp h)) (iblk1 V c 0 t) (iblk1 V c 1 t) (iblk1 V c 2 t) (iblk1 V c 3 t) (iblk1 V c 4 t) s0 s1
abbrev runAtC (h0 : ¬t.val % 8 = 0) (h1 : t.val % 8 = 7) (s0 s1 : Vec F S1024x1 .f32) :=
  kernelRun1_C c (grid1.coords t) (opsAt t) (fun h => h0 ((hcond1_0 t).mp h)) ((hcond1_1 t).mpr h1) (iblk1 V c 0 t) (iblk1 V c 1 t) (iblk1 V c 2 t) (iblk1 V c 3 t) (iblk1 V c 4 t) s0 s1

/-- What each case leaves at point `t`. -/
def ptA (h0 : t.val % 8 = 0) (h1 : ¬t.val % 8 = 7) : Vec F S1024x1 .f32 × Vec F S1024x1 .f32 × Vec F S1024x1 .f32 :=
  outs3 (runAtA V c t h0 h1).1 (runAtA V c t h0 h1).2.1 (runAtA V c t h0 h1).2.2.1
def ptB (h0 : ¬t.val % 8 = 0) (h1 : ¬t.val % 8 = 7) (s0 s1 : Vec F S1024x1 .f32) : Vec F S1024x1 .f32 × Vec F S1024x1 .f32 × Vec F S1024x1 .f32 :=
  outs3 (runAtB V c t h0 h1 s0 s1).1 (runAtB V c t h0 h1 s0 s1).2.1 (runAtB V c t h0 h1 s0 s1).2.2.1
def ptC (h0 : ¬t.val % 8 = 0) (h1 : t.val % 8 = 7) (s0 s1 : Vec F S1024x1 .f32) : Vec F S1024x1 .f32 × Vec F S1024x1 .f32 × Vec F S1024x1 .f32 :=
  outs3 (runAtC V c t h0 h1 s0 s1).1 (runAtC V c t h0 h1 s0 s1).2.1 (runAtC V c t h0 h1 s0 s1).2.2.1

end Points

/-- The output window's buffer and the two running values after the body at position `n`: the case `n % 8` selects,
    cases B and C over what position `n - 1` left. -/
def outsAt1 (c : Dev nD) : (n : ℕ) → n < cfg1.N → Vec F S1024x1 .f32 × Vec F S1024x1 .f32 × Vec F S1024x1 .f32
  | 0, hn => ptA V c ⟨0, hn⟩ (Nat.zero_mod _) (by (try dsimp only); omega)
  | n + 1, hn =>
    if h0 : (n + 1) % 8 = 0 then ptA V c ⟨n + 1, hn⟩ h0 (by (try dsimp only); omega)
    else if h1 : (n + 1) % 8 = 7 then
      ptC V c ⟨n + 1, hn⟩ h0 h1 (outsAt1 c n (Nat.lt_of_succ_lt hn)).2.1 (outsAt1 c n (Nat.lt_of_succ_lt hn)).2.2
    else ptB V c ⟨n + 1, hn⟩ h0 h1 (outsAt1 c n (Nat.lt_of_succ_lt hn)).2.1 (outsAt1 c n (Nat.lt_of_succ_lt hn)).2.2

section Eqs
variable (c : Dev nD) (t : Fin cfg1.N)

/-- The two running values the point before `t` left. -/
abbrev prev1 : Vec F S1024x1 .f32 × Vec F S1024x1 .f32 :=
  (outsAt1 V c (t.val - 1) (Nat.lt_of_le_of_lt (Nat.sub_le _ _) t.isLt)).2

theorem outsAt1_A (h0 : t.val % 8 = 0) (h1 : ¬t.val % 8 = 7) : outsAt1 V c t.val t.isLt = ptA V c t h0 h1 := by
  obtain ⟨n, hn⟩ := t
  cases n with
  | zero => rfl
  | succ n => exact dif_pos h0

theorem outsAt1_B (h0 : ¬t.val % 8 = 0) (h1 : ¬t.val % 8 = 7) :
    outsAt1 V c t.val t.isLt = ptB V c t h0 h1 (prev1 V c t).1 (prev1 V c t).2 := by
  obtain ⟨n, hn⟩ := t
  cases n with
  | zero => exact absurd (Nat.zero_mod _) h0
  | succ n => exact (dif_neg h0).trans ((dif_neg h1).trans rfl)

theorem outsAt1_C (h0 : ¬t.val % 8 = 0) (h1 : t.val % 8 = 7) :
    outsAt1 V c t.val t.isLt = ptC V c t h0 h1 (prev1 V c t).1 (prev1 V c t).2 := by
  obtain ⟨n, hn⟩ := t
  cases n with
  | zero => exact absurd (Nat.zero_mod _) h0
  | succ n => exact (dif_neg h0).trans ((dif_pos h1).trans rfl)

end Eqs

/-- The region invariant before position `n`: the untouched rest, the two scratches at anything before the first point and
    at what position `n - 1` left afterwards. -/
def PhiS1 (c : Dev nD) : (n : ℕ) → n ≤ cfg1.N → sProp 𝕄
  | 0, _ => Pipeline.ΦA spec1 c
  | n + 1, hn => rest1 c (owns (c : Thread nD τ) scM1_0 fullShare (outsAt1 V c n hn).2.1) (owns (c : Thread nD τ) scM1_1 fullShare (outsAt1 V c n hn).2.2)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = rest1 c (owns (c : Thread nD τ) scM1_0 fullShare (outsAt1 V c n hn).2.1) (owns (c : Thread nD τ) scM1_1 fullShare (outsAt1 V c n hn).2.2) := rfl

theorem PhiS1_pos (c : Dev nD) (n : ℕ) (h : n ≤ cfg1.N) (hz : n ≠ 0) :
    PhiS1 V c n h = rest1 c (owns (c : Thread nD τ) scM1_0 fullShare (outsAt1 V c (n - 1) (by omega)).2.1) (owns (c : Thread nD τ) scM1_1 fullShare (outsAt1 V c (n - 1) (by omega)).2.2) := by
  cases n with
  | zero => exact absurd rfl hz
  | succ n => rfl

/-- Region 1's proof data on core `c`: the arrays as the region is entered, each input's block, and the values `outsAt1` follows. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem before1_4 (c : Dev nD) (t : Fin cfg1.N) (d) : (dat1 V c).before 4 t d = iblk1 V c 4 t :=
  (dat1 V c).before_in_eq_fetched 4 rfl (fun _ => rfl) (fun _ _ _ => rfl) (fun _ => rfl) t d

theorem q1_0 (c : Dev nD) : (dat1 V c).q 0 = fullShare.left := by dsimp only [dat1]
theorem q1_1 (c : Dev nD) : (dat1 V c).q 1 = fullShare.right := by dsimp only [dat1]
theorem q1_2 (c : Dev nD) : (dat1 V c).q 2 = fullShare := by dsimp only [dat1]
theorem q1_3 (c : Dev nD) : (dat1 V c).q 3 = fullShare := by dsimp only [dat1]
theorem q1_4 (c : Dev nD) : (dat1 V c).q 4 = fullShare := by dsimp only [dat1]
theorem q1_5 (c : Dev nD) : (dat1 V c).q 5 = fullShare := by dsimp only [dat1]
theorem owed1 (c : Dev nD) (t : Fin (cfg1.N + 1)) : (dat1 V c).owed t = 0 := by dsimp only [dat1]

end Cert.Kernel.Hand

end
-- ==== Proof.K.Fold.lean ====
import proofs.«429060_j8641474200296_2_alg».proof.Proof.Gen.Kernel.Regions
import proofs.«429060_j8641474200296_2_alg».proof.Proof.K.Norm
import proofs.«429060_j8641474200296_2_alg».proof.Proof.K.TripDat
set_option maxRecDepth 16384
noncomputable section
namespace Cert.Kernel.Hand
open Cert.Kernel Cert.Kernel.Gen
open Idealize.ShloMosaic Idealize.ShloMosaic.TcCoe
variable {F : FTy → Type} [FloatOps F]

variable (m : (ℓ : Loc nD τ sig) → Buf (Elt F) ℓ)

-- The valuations at the five boundaries of the program, each folded from the one before, starting at the memory `m`.
abbrev W0 : Dev nD → Valuation τ sig (Elt F) := fun c b => m (c, b)
abbrev V0 : (c : Dev nD) → (b : Ref sig .tc) → Buf (Elt F) ((c : Thread nD τ).loc b) := fun c b => W0 m c b
def W1 (c : Dev nD) : Valuation τ sig (Elt F) :=
  Pipeline.withArrays spec0 c (W0 m c) fun w => (dat0 (V0 m) c).arrAt w cfg0.N
abbrev W2 : Dev nD → Valuation τ sig (Elt F) := fun c => StableHlo.after hostOps1 (W1 m c)
abbrev V2 : (c : Dev nD) → (b : Ref sig .tc) → Buf (Elt F) ((c : Thread nD τ).loc b) := fun c b => W2 m c b
def W3 (c : Dev nD) : Valuation τ sig (Elt F) :=
  Function.update (W2 m c) (Proc.devRef .tc main_v23) ((dat1 (V2 m) c).arrAt 5 cfg1.N)
abbrev W4 : Dev nD → Valuation τ sig (Elt F) := fun c => StableHlo.after hostOps2 (W3 m c)

variable (c : Dev nD)

theorem W1_arr (w : Fin cfg0.W) : W1 m c (Proc.devRef .tc (Pipeline.arrRef spec0 w)) = (dat0 (V0 m) c).arrAt w cfg0.N :=
  Pipeline.withArrays_arr spec0 launch0.win.arr_inj c _ _ w
theorem W1_of_ne (b : Ref sig .tc) (hb : ∀ w, Pipeline.arrRef spec0 w ≠ b) : W1 m c (Proc.devRef .tc b) = W0 m c (Proc.devRef .tc b) :=
  Pipeline.withArrays_of_ne spec0 c _ _ b hb
theorem W1_main_v0 : W1 m c (Proc.devRef .tc main_v0) = (dat0 (V0 m) c).arrAt 1 cfg0.N := W1_arr m c 1
theorem W1_main_arg1 : W1 m c (Proc.devRef .tc main_arg1) = m ((c : Thread nD τ).loc main_arg1) := W1_of_ne m c main_arg1 (by decide)
theorem W3_main_v23 : W3 m c (Proc.devRef .tc main_v23) = (dat1 (V2 m) c).arrAt 5 cfg1.N := Function.update_self _ _ _
theorem W3_of_ne (r : Ref sig .tc) (h : r ≠ main_v23) : W3 m c (Proc.devRef .tc r) = W2 m c (Proc.devRef .tc r) :=
  Function.update_of_ne (StableHlo.devRef_ne_of_ne h) _ _

-- Three steps of the fold that leave `r` alone compose.
theorem W4_eq_W1 (r : Ref sig .tc) (h2 : r ∉ hostOps2_W) (h3 : r ≠ main_v23) (h1 : r ∉ hostOps1_W) :
    W4 m c (Proc.devRef .tc r) = W1 m c (Proc.devRef .tc r) :=
  (StableHlo.after_of_writes_sub hostOps2 _ hostOps2_writes h2).trans <| (W3_of_ne m c r h3).trans
    (StableHlo.after_of_writes_sub hostOps1 _ hostOps1_writes h1)
theorem W4_main_arg0 : W4 m c (Proc.devRef .tc main_arg0) = m ((c : Thread nD τ).loc main_arg0) :=
  (W4_eq_W1 m c _ (by decide) (by decide) (by decide)).trans <| (W1_arr m c 0).trans ((dat0 (V0 m) c).arrAt_in 0 rfl _)
theorem W4_main_arg1 : W4 m c (Proc.devRef .tc main_arg1) = m ((c : Thread nD τ).loc main_arg1) :=
  (W4_eq_W1 m c _ (by decide) (by decide) (by decide)).trans (W1_main_arg1 m c)

-- Only the last window's array changes over the region, and it is the one the fold updates.
theorem hF1 (w : Fin cfg1.W) : (dat1 (V2 m) c).arrAt w cfg1.N = W3 m c (Proc.devRef .tc (Pipeline.arrRef spec1 w)) := by
  by_cases h : w = 5
  · subst h; exact (W3_main_v23 m c).symm
  · exact ((dat1 (V2 m) c).arrAt_in w (by revert w; decide) _).trans
      ((A_eq1 (V2 m) c w).trans (W3_of_ne m c _ (by revert w; decide)).symm)

end Cert.Kernel.Hand
end
-- ==== Proof.K.TripFrame.lean ====
import proofs.«429060_j8641474200296_2_alg».proof.Proof.K.TripDat
import proofs.«429060_j8641474200296_2_alg».proof.Proof.Gen.Kernel.Launch
import proofs.«429060_j8641474200296_2_alg».proof.Proof.Gen.Kernel.Skeleton
import proofs.«429060_j8641474200296_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

/-- At any position the invariant gives the untouched rest back: the scratches' named contents are forgotten. -/
theorem PhiS1_out (c : Dev nD) (n : ℕ) (h : n ≤ cfg1.N) : PhiS1 V c n h ⊢ Pipeline.ΦA spec1 c := by
  cases n with
  | zero => exact Idealize.SL.BI.Entails.refl _
  | succ n =>
    rw [PhiS1_succ V c n h, PhiA1_eq]; unfold rest1
    iintro ⟨⟨HR0, HR1, HR2, HR3, HS0, HS1⟩, Hg⟩
    isplitl [HR0 HR1 HR2 HR3 HS0 HS1]
    · isplitl [HR0]; · iexact HR0
      isplitl [HR1]; · iexact HR1
      isplitl [HR2]; · iexact HR2
      isplitl [HR3]; · iexact HR3
      isplitl [HS0]; · iexists _; iexact HS0
      iexists _; iexact HS1
    iexact Hg

set_option maxHeartbeats 4800000 in
/-- The body at any point: the column step selects the case; the invariant hands its run the two scratches (case A
    resets them, so there they may hold anything) and takes them back at the contents the run's covering pieces leave. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ, PhiS1_castSucc V c t]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  have hN : t.val < 64 := lt_of_lt_of_eq t.isLt (show cfg1.N = 64 from N_1)
  by_cases h0 : t.val % 8 = 0
  · have h1 : ¬t.val % 8 = 7 := by omega
    rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
    rw [outsAt1_A V c t h0 h1]
    refine BIBase.Entails.trans (sep_mono_l (PhiS1_out V c t.val _)) ?_
    show iprop(Pipeline.ΦA spec1 c ∗ _) ⊢ _
    rw [PhiA1_eq]; unfold rest1; dsimp only [ptA, outs3, rd]
    iintro ⟨⟨⟨HR0, HR1, HR2, HR3, HS0, HS1⟩, Hg⟩, Ho, ⟨%d0, H0⟩, ⟨%d1, H1⟩, ⟨%d2, H2⟩, ⟨%d3, H3⟩, ⟨%d4, H4⟩, ⟨%d5, H5⟩⟩
    iapply ((runAtA V c t h0 h1).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, ⟨%es0, HS0⟩, ⟨%es1, HS1⟩⟩
    isplitl [HR0 HR1 HR2 HR3 HS0 HS1 Hg]
    · isplitl [HR0 HR1 HR2 HR3 HS0 HS1]
      · isplitl [HR0]; · iexact HR0
        isplitl [HR1]; · iexact HR1
        isplitl [HR2]; · iexact HR2
        isplitl [HR3]; · iexact HR3
        isplitl [HS0]
        · unfold owns; iexists _; isplitr
          swap; · iexact HS0
          ipureintro; exact View.read_writes_of_cover _ _ _ _ _ (coverA _ _ _ _ _ _ _ _ _ _).1
        unfold owns; iexists _; isplitr
        swap; · iexact HS1
        ipureintro; exact View.read_writes_of_cover _ _ _ _ _ (coverA _ _ _ _ _ _ _ _ _ _).2
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := fun e => h0 (by rw [e])
    rw [PhiS1_pos V c _ _ hz]
    by_cases h1 : t.val % 8 = 7
    · rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold rest1; dsimp only [ptC, outs3, rd]
      iintro ⟨⟨⟨HR0, HR1, HR2, HR3, HS0, HS1⟩, Hg⟩, Ho, ⟨%d0, H0⟩, ⟨%d1, H1⟩, ⟨%d2, H2⟩, ⟨%d3, H3⟩, ⟨%d4, H4⟩, ⟨%d5, H5⟩⟩
      iapply ((runAtC V c t h0 h1 _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [HR0 HR1 HR2 HR3 HS0 HS1 Hg]
      · isplitl [HR0 HR1 HR2 HR3 HS0 HS1]
        · isplitl [HR0]; · iexact HR0
          isplitl [HR1]; · iexact HR1
          isplitl [HR2]; · iexact HR2
          isplitl [HR3]; · iexact HR3
          isplitl [HS0]
          · unfold owns; iexists _; isplitr
            swap; · iexact HS0
            ipureintro; exact View.read_writes_of_cover _ _ _ _ _ (coverC _ _ _ _ _ _ _ _ _ _ _ _).2.1
          unfold owns; iexists _; isplitr
          swap; · iexact HS1
          ipureintro; exact View.read_writes_of_cover _ _ _ _ _ (coverC _ _ _ _ _ _ _ _ _ _ _ _).2.2
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverC _ _ _ _ _ _ _ _ _ _ _ _).1
    · rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold rest1; dsimp only [ptB, outs3, rd]
      iintro ⟨⟨⟨HR0, HR1, HR2, HR3, HS0, HS1⟩, Hg⟩, Ho, ⟨%d0, H0⟩, ⟨%d1, H1⟩, ⟨%d2, H2⟩, ⟨%d3, H3⟩, ⟨%d4, H4⟩, ⟨%d5, H5⟩⟩
      iapply ((runAtB V c t h0 h1 _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HR0 HR1 HR2 HR3 HS0 HS1 Hg]
      · isplitl [HR0 HR1 HR2 HR3 HS0 HS1]
        · isplitl [HR0]; · iexact HR0
          isplitl [HR1]; · iexact HR1
          isplitl [HR2]; · iexact HR2
          isplitl [HR3]; · iexact HR3
          isplitl [HS0]
          · unfold owns; iexists _; isplitr
            swap; · iexact HS0
            ipureintro; exact View.read_writes_of_cover _ _ _ _ _ (coverB _ _ _ _ _ _ _ _ _ _ _ _).1
          unfold owns; iexists _; isplitr
          swap; · iexact HS1
          ipureintro; exact View.read_writes_of_cover _ _ _ _ _ (coverB _ _ _ _ _ _ _ _ _ _ _ _).2
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := Idealize.SL.BI.Entails.refl _

theorem hout1 (c : Dev nD) : (dat1 V c).Φ (Fin.last cfg1.N) ⊢ Pipeline.ΦA spec1 c :=
  PhiS1_out V c (Fin.last cfg1.N).val (Nat.le_of_lt_succ (Fin.last cfg1.N).isLt)

end Cert.Kernel.Hand

end
-- ==== Proof.K.Launch.lean ====
import proofs.«429060_j8641474200296_2_alg».proof.Proof.K.Fold
import proofs.«429060_j8641474200296_2_alg».proof.Proof.K.TripFrame
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (m : (ℓ : Loc nD τ sig) → Buf (Elt F) ℓ) (ρ : Dev nD → PrngReg)

-- The six windows of the second region lie on five distinct arrays.
theorem arrBufs1_eq (c : Dev nD) (V : (b : Ref sig .tc) → Buf (Elt F) ((c : Thread nD τ).loc b)) :
    (Pipeline.arrBufs spec1 c V : sProp 𝕄)
      = iprop((((c : Thread nD τ).loc main_v0) ↦{fullShare} V main_v0) ∗ (((c : Thread nD τ).loc main_v21) ↦{fullShare} V main_v21)
          ∗ (((c : Thread nD τ).loc main_v22) ↦{fullShare} V main_v22) ∗ (((c : Thread nD τ).loc main_v20) ↦{fullShare} V main_v20)
          ∗ (((c : Thread nD τ).loc main_v23) ↦{fullShare} V main_v23)) := by
  unfold Pipeline.arrBufs
  exact bigSep_eq_bigSepL_of_eq ([main_v0, main_v21, main_v22, main_v20, main_v23] : List (Ref sig .tc)) (by decide) (by decide) _

theorem arrays1_eq {c : Dev nD} (dat : Dat τ (Elt F) Unit ℕ (UR sig nD τ) ℕ cfg1 c)
    (F' : (w : Fin cfg1.W) → Buf (Elt F) ((cfg1.win w).arr.view.loc (c : Thread nD τ))) :
    (dat.arrays F' : sProp 𝕄)
      = iprop((((c : Thread nD τ).loc main_v0) ↦{dat.q 0} F' 0) ∗ (((c : Thread nD τ).loc main_v0) ↦{dat.q 1} F' 1)
          ∗ (((c : Thread nD τ).loc main_v21) ↦{dat.q 2} F' 2) ∗ (((c : Thread nD τ).loc main_v22) ↦{dat.q 3} F' 3)
          ∗ (((c : Thread nD τ).loc main_v20) ↦{dat.q 4} F' 4) ∗ (((c : Thread nD τ).loc main_v23) ↦{fullShare} F' 5)) := by
  unfold Dat.arrays
  rw [bigSep_W1, (arr_whole1 0).set_eq_univ, (arr_whole1 2).set_eq_univ, (arr_whole1 3).set_eq_univ,
    (arr_whole1 4).set_eq_univ, (arr_whole1 5).set_eq_univ]
  rfl

section Arrays1

variable (V : (c : Dev nD) → (b : Ref sig .tc) → Buf (Elt F) ((c : Thread nD τ).loc b)) (c : Dev nD)
  (V₀ V' : (b : Ref sig .tc) → Buf (Elt F) ((c : Thread nD τ).loc b))
  (F' : (w : Fin cfg1.W) → Buf (Elt F) ((cfg1.win w).arr.view.loc (c : Thread nD τ))) (hF : ∀ w, F' w = V' (Pipeline.arrRef spec1 w))

include hF in
-- The whole of the array two windows share is its two half shares, one for each; every other array is one window's.
theorem arrays1_iff : (unscopedBufs c V' : sProp 𝕄) ⊣⊢ iprop((dat1 V c).arrays F' ∗ Pipeline.unscopedRest spec1 c V') := by
  have hsp : (unscopedBufs c V' : sProp 𝕄) = iprop(Pipeline.arrBufs spec1 c V' ∗ Pipeline.unscopedRest spec1 c V') :=
    Pipeline.unscopedBufs_split₀ (Pipeline.pin (pcfgs (F := F)) adm) 1 winFacts₀1.arr_unscoped c V'
  rw [hsp, arrBufs1_eq, arrays1_eq, q1_0, q1_1, q1_2, q1_3, q1_4, hF 0, hF 1, hF 2, hF 3, hF 4, hF 5]
  constructor
  · iintro ⟨⟨H0, H2, H3, H4, H5⟩, Hr⟩
    ihave H0' := (pointsTo_share (PosShare.mem_left_op_right fullShare)).1 $$ H0
    icases H0' with ⟨H0l, H0r⟩
    iframe
  · iintro ⟨⟨H0l, H0r, H2, H3, H4, H5⟩, Hr⟩
    iframe H2 H3 H4 H5 Hr
    iapply (pointsTo_share (PosShare.mem_left_op_right fullShare)).2
    iframe

include hF in
theorem unscopedBufs_of_arrays1 (hrest : ∀ b, b ∉ Finset.univ.image (Pipeline.arrRef spec1) → V' b = V₀ b) :
    iprop((dat1 V c).arrays F' ∗ Pipeline.unscopedRest spec1 c V₀) ⊢ (unscopedBufs c V' : sProp 𝕄) := by
  have hr : (Pipeline.unscopedRest spec1 c V₀ : sProp 𝕄)
      = Pipeline.unscopedRest spec1 c V' := by
    unfold Pipeline.unscopedRest
    exact bigSep_congr fun b hb => by rw [hrest b (Finset.mem_sdiff.mp hb).2]
  rw [hr]
  exact (arrays1_iff V c V' F' hF).2

end Arrays1

def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
-- The state between two steps: every unscoped buffer held at the valuation `W`, the register and the debts riding along.
abbrev T (W : Dev nD → Valuation τ sig (Elt F)) (c : Dev nD) : sProp 𝕄 :=
  iprop(StableHlo.held (c : Thread nD τ) (Pipeline.ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

theorem noPref : ∀ (p : Fin 2) (c : Dev nD),
    (BI.emp : sProp 𝕄) ⊢ Pipeline.prefHeld (pcfgs (F := F) p).pre c (fun _ => fullShare) (adm p).1
  | ⟨0, _⟩, _ | ⟨1, _⟩, _ => by
    unfold Pipeline.prefHeld; rw [show (Finset.univ : Finset (Fin 0)) = ∅ from rfl, BI.bigSep_empty]

section Thread

variable (c : Dev nD) (W : Dev nD → Valuation τ sig (Elt F)) {B : Set (SemLoc sig × Unit)}

-- Entering a region: its arrays `A` are split out of the held buffers, the rest `Z` passes by, nothing is owed.
theorem entry_of {A Z P : sProp 𝕄} (hs : (unscopedBufs c (fun b => W c b) : sProp 𝕄) ⊢ iprop(A ∗ Z)) (hp : (BI.emp : sProp 𝕄) ⊢ P) (hB : ∀ x, x ∈ B) :
    iprop(T W c ∗ BI.emp ∗ levAts L lv)
      ⊢ |={Set.univ}=> iprop(A ∗ P ∗ Pipeline.owesWithin c 0 B ∗ (∃ r, prngReg c r) ∗ Z) := by
  rw [Pipeline.unscopedBufs_held] at hs
  iintro ⟨⟨Hub, Hp, %O, HO⟩, -, -⟩
  ihave H := hs $$ Hub
  icases H with ⟨Ha, Hrest⟩
  imodintro
  isplitl [Ha]; · iexact Ha
  isplitr; · iapply hp; iempintro
  isplitl [HO]
  · iexists O; isplitr; · ipureintro; exact fun x _ => hB x
    iexact HO
  iframe

-- Leaving it: the arrays and the rest are joined back into the held buffers.
theorem exit_of {A Z : sProp 𝕄} (hj : iprop(A ∗ Z) ⊢ (unscopedBufs c (fun b => W c b) : sProp 𝕄)) :
    iprop(A ∗ Pipeline.owesWithin c 0 B ∗ (∃ r, prngReg c r) ∗ Z)
      ⊢ |={Set.univ}=> T W c := by
  rw [Pipeline.unscopedBufs_held] at hj
  iintro ⟨Ha, ⟨%O, -, HO⟩, HY, Hrest⟩
  imodintro
  isplitl [Ha Hrest]
  · iapply hj; iframe
  isplitl [HY]; · iexact HY
  iexists O; iexact HO

theorem in_of {S P Φ : sProp 𝕄} (h : iprop(S ∗ ∃ r, prngReg c r) ⊢ Φ) : iprop((∃ r, prngReg c r) ∗ P ∗ S) ⊢ Φ := by
  refine BIBase.Entails.trans ?_ h
  iintro ⟨Hp, -, Hr⟩
  iframe

theorem out_of {S Φ : sProp 𝕄} (h : Φ ⊢ iprop(S ∗ ∃ r, prngReg c r)) : Φ ⊢ iprop((∃ r, prngReg c r) ∗ BI.emp ∗ S) := by
  refine BIBase.Entails.trans h ?_
  iintro ⟨Hr, Hp⟩
  iframe
  iempintro

end Thread

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre := T (W0 m)
  post := T (W1 m)
  X c := iprop(∃ r, prngReg c r)
  Y c := iprop(∃ r, prngReg c r)
  Z c := Pipeline.unscopedRest spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    exact entry_of c (W0 m) hsplit (noPref 0 c) fun _ => Or.inl trivial
  hin c := in_of c .rfl
  hout c := by rw [Pipeline.ownSems0_none]; exact out_of c .rfl
  hexit c := by
    have hjoin := Pipeline.unscopedBufs_of_arrays (p := 0) (pcfgs (F := F)) adm
      launch0.win launch0.arr_whole c (pdats m) ((pdats m 0 c).share_full fun _ => rfl)
      (V0 m c) (fun b => W1 m c b) ((pdats m 0 c).arrAt · cfg0.N) (fun w => (W1_arr m c w).symm)
      fun b hb => W1_of_ne m c b fun w e => hb (Finset.mem_image.mpr ⟨w, Finset.mem_univ _, e⟩)
    exact exit_of c (W1 m) hjoin

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun c t => owed1 (V2 m) c t
  pre := T (W2 m)
  post := T (W3 m)
  X c := iprop(∃ r, prngReg c r)
  Y c := iprop(∃ r, prngReg c r)
  Z c := Pipeline.unscopedRest spec1 c (V2 m c)
  hentry c := by
    rw [Pipeline.ownSems0_none]
    have hsplit := (arrays1_iff (V2 m) c (V2 m c) ((pdats m 1 c).arrAt · 0) fun w => A_eq1 (V2 m) c w).1
    exact entry_of c (W2 m) hsplit (noPref 1 c) fun _ => Or.inl trivial
  hin c := in_of c (hin1 (V2 m) c)
  hout c := by rw [Pipeline.ownSems0_none]; exact out_of c (hout1 (V2 m) c)
  hexit c := by
    have hjoin := unscopedBufs_of_arrays1 (V2 m) c (V2 m c) (fun b => W3 m c b) ((pdats m 1 c).arrAt · cfg1.N) (hF1 m c)
      fun b hb => W3_of_ne m c b fun e => hb (Finset.mem_image.mpr ⟨5, Finset.mem_univ _, e.symm⟩)
    exact exit_of c (W3 m) hjoin

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]
theorem main_run (c : Dev nD) : main (F := F) c = Pipeline.Seg.run (segs m) :=
  main_segs adm (pdats m) () 𝒱₀ L lv _ _ (reg0 m) (reg1 m) rfl rfl c

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m)) (Tₙ := Tₙ m)
    (hch := ⟨fun _ => .rfl, fun _ => .rfl, fun _ => .rfl, fun _ => .rfl, fun c => by
      show T (W4 m) c ⊢ iprop(Tₙ m c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

end Cert.Kernel.Hand
end
-- ==== Proof.KI.Norm.lean ====
import proofs.«429060_j8641474200296_2_alg».proof.Proof.Gen.KernelIdeal.Launch
import proofs.«429060_j8641474200296_2_alg».proof.Proof.Gen.KernelIdeal.Skeleton
import proofs.«429060_j8641474200296_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1024x128 := Rect.unit (s := S1024x128) ![0, 0] S1024x128.size inb_S1024x128_S1024x128_0_0

def out0_1 (x0 : Vec F S1024x128 .f32) : Vec F S1024x128 .bf16 :=
  View.canon [⟨r0_0, k0_pay1 (View.ld x0 r0_0)⟩]

set_option maxHeartbeats 1000000 in
-- One piece that tiles the whole index set covers it, so reading the writes back gives the canonical view.
theorem sound_kernel0 (c : Dev nD) (E : Set ℕ) (i : grid0.Coords) (arg1 : Memref sig .tc .vmem S1024x128 .f32) (harg1 : arg1.IsWhole) (arg2 : Memref sig .tc .vmem S1024x128 .bf16) (harg2 : arg2.IsWhole)
    (x0 : Vec F S1024x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (View.cover_of_tiled [⟨r0_0, _⟩] S1024x128.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem body_obligation0 (c : Dev nD) : BodyObligation (dat0 (F := F) V c) (defs₀ (F := F)) Variants.none () Set.univ := fun t => by
  rw [bigSep_W0, bigSep_W0]
  dsimp only
  change _ ⊢ wp frame _ Set.univ (bodyAt0 t) _
  unfold bodyAt0
  simp only [before0_0]
  rw [show (dat0 V c).Φ t.succ = (dat0 V c).Φ t.castSucc from rfl,
    show (dat0 V c).owesAt () t.succ = (dat0 V c).owesAt () t.castSucc from rfl, after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  iframe

end Cert.KernelIdeal.Hand

end
-- ==== Proof.KI.TripBase.lean ====
import proofs.«429060_j8641474200296_2_alg».proof.Proof.Gen.KernelIdeal.Launch
import proofs.«429060_j8641474200296_2_alg».proof.Proof.Gen.KernelIdeal.Skeleton
import proofs.«429060_j8641474200296_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

section Blocks
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

end Blocks

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := k1_cond2 i = 1#1

theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel

theorem liveAt1_1 : ∀ t : Fin cfg1.N, cfg1.idle 1 (grid1.coords t) = false := by decide +kernel

theorem liveAt1_2 : ∀ t : Fin cfg1.N, cfg1.idle 2 (grid1.coords t) = false := by decide +kernel

theorem liveAt1_3 : ∀ t : Fin cfg1.N, cfg1.idle 3 (grid1.coords t) = false := by decide +kernel

theorem liveAt1_4 : ∀ t : Fin cfg1.N, cfg1.idle 4 (grid1.coords t) = false := by decide +kernel

theorem idleAt1_5_A : ∀ t : Fin cfg1.N, cond1_0 (grid1.coords t) → ¬cond1_1 (grid1.coords t) → cfg1.idle 5 (grid1.coords t) = true := by decide +kernel

theorem noFlush1_5_A : ∀ t : Fin cfg1.N, cond1_0 (grid1.coords t) → ¬cond1_1 (grid1.coords t) → (cfg1.win 5).flush t = false := by decide +kernel

theorem idleAt1_5_B : ∀ t : Fin cfg1.N, ¬cond1_0 (grid1.coords t) → ¬cond1_1 (grid1.coords t) → cfg1.idle 5 (grid1.coords t) = true := by decide +kernel

theorem noFlush1_5_B : ∀ t : Fin cfg1.N, ¬cond1_0 (grid1.coords t) → ¬cond1_1 (grid1.coords t) → (cfg1.win 5).flush t = false := by decide +kernel

theorem liveAt1_5_C : ∀ t : Fin cfg1.N, ¬cond1_0 (grid1.coords t) → cond1_1 (grid1.coords t) → cfg1.idle 5 (grid1.coords t) = false := by decide +kernel

abbrev VO1_5 : View sig .tc .vmem S1024x1 .f32 := (Memref.whole cc1_stg5_0 : Memref sig .tc .vmem S1024x1 .f32).view

abbrev ms1_0 (t : Fin cfg1.N) : Memref sig .tc .vmem S1024x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x8192 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1 .f32 := win1_5.stage (cfg1.slots t 5)
abbrev hs1_5 (t : Fin cfg1.N) : (ms1_5 t).IsWhole := hstage1_5 ((cfg1.slots t 5).cast nbuf1_5)

abbrev scM1_0 : Memref sig .tc .vmem S1024x1 .f32 := Memref.whole cc1_scratch0
abbrev scM1_1 : Memref sig .tc .vmem S1024x1 .f32 := Memref.whole cc1_scratch1

abbrev VS1_0 : View sig .tc .vmem S1024x1 .f32 := scM1_0.view
abbrev VS1_1 : View sig .tc .vmem S1024x1 .f32 := scM1_1.view

/-- The body's eight memref operands, each whole. -/
structure Ops where
  a2 : Memref sig .tc .vmem S1024x128 .bf16
  h2 : a2.IsWhole
  a3 : Memref sig .tc .vmem S8192x128 .bf16
  h3 : a3.IsWhole
  a4 : Memref sig .tc .vmem S1024x1 .i32
  h4 : a4.IsWhole
  a5 : Memref sig .tc .vmem S1x8192 .i32
  h5 : a5.IsWhole
  a6 : Memref sig .tc .vmem S1024x1 .f32
  h6 : a6.IsWhole
  a7 : Memref sig .tc .vmem S1024x1 .f32
  h7 : a7.IsWhole
  a8 : Memref sig .tc .vmem S1024x1 .f32
  h8 : a8.IsWhole
  a9 : Memref sig .tc .vmem S1024x1 .f32
  h9 : a9.IsWhole

/-- The operands the body is called with at point `t`. -/
abbrev opsAt (t : Fin cfg1.N) : Ops :=
  ⟨ms1_0 t, hs1_0 t, ms1_1 t, hs1_1 t, ms1_2 t, hs1_2 t, ms1_3 t, hs1_3 t, ms1_4 t, hs1_4 t, ms1_5 t, hs1_5 t,
    scM1_0, Memref.isWhole_whole _, scM1_1, Memref.isWhole_whole _⟩

/-- The region's untouched rest, the two scratches in the states `s0` and `s1`. -/
def rest1 (c : Dev nD) (s0 s1 : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ s0 ∗ s1) ∗ (∃ r, prngReg c r))

theorem PhiA1_eq (c : Dev nD) :
    (Pipeline.ΦA spec1 c : sProp 𝕄)
      = rest1 c iprop(∃ d, owns (c : Thread nD τ) scM1_0 fullShare d) iprop(∃ d, owns (c : Thread nD τ) scM1_1 fullShare d) := by
  unfold Pipeline.ΦA rest1; rw [scopedRest1_eq]; simp only [scM1_0, scM1_1, owns_whole]; try rfl

end Cert.KernelIdeal.Hand

end
-- ==== Proof.KI.TripRunA.lean ====
import proofs.«429060_j8641474200296_2_alg».proof.Proof.KI.TripBase
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 1000000 in
/-- Case A of the body (column step 0): both running values are reset, then the tile is accumulated; nothing is stored. -/
noncomputable def kernelRun1_A (c : Dev nD) (i : grid1.Coords) (o : Ops) (hc0 : cond1_0 i) (hc1 : ¬cond1_1 i)
    (x0 : Vec F S1024x128 .bf16) (x1 : Vec F S8192x128 .bf16) (x2 : Vec F S1024x1 .i32) (x3 : Vec F S1x8192 .i32) (x4 : Vec F S1024x1 .f32) :
    Σ' (L5 : List (View.Piece (Elt F) S1024x1 .f32)) (LS0 : List (View.Piece (Elt F) S1024x1 .f32)), { LS1 : List (View.Piece (Elt F) S1024x1 .f32) //
      ∀ (xi5 : Vec F S1024x1 .f32) (E : Set ℕ) (K : PUnit → sProp 𝕄),
        iprop(owns (c : Thread nD τ) o.a2 fullShare x0 ∗ owns (c : Thread nD τ) o.a3 fullShare x1 ∗ owns (c : Thread nD τ) o.a4 fullShare x2 ∗ owns (c : Thread nD τ) o.a5 fullShare x3 ∗ owns (c : Thread nD τ) o.a6 fullShare x4 ∗ owns (c : Thread nD τ) o.a7 fullShare xi5 ∗ (∃ d, owns (c : Thread nD τ) o.a8 fullShare d) ∗ (∃ d, owns (c : Thread nD τ) o.a9 fullShare d)
            ∗ (iprop(owns (c : Thread nD τ) o.a2 fullShare x0 ∗ owns (c : Thread nD τ) o.a3 fullShare x1 ∗ owns (c : Thread nD τ) o.a4 fullShare x2 ∗ owns (c : Thread nD τ) o.a5 fullShare x3 ∗ owns (c : Thread nD τ) o.a6 fullShare x4 ∗ owns (c : Thread nD τ) o.a7 fullShare xi5 ∗ (∃ f, o.a8.view.loc (c : Thread nD τ) ↦[o.a8.view.set]{fullShare} o.a8.view.writes (Elt F) f LS0) ∗ (∃ f, o.a9.view.loc (c : Thread nD τ) ↦[o.a9.view.set]{fullShare} o.a9.view.writes (Elt F) f LS1)) -∗ K ⟨⟩))
          ⊢ wp frame (wpE (defs₀ (F := F)) Variants.none c none) E (cc1__triplet_kernel i o.a2 o.h2 o.a3 o.h3 o.a4 o.h4 o.a5 o.h5 o.a6 o.h6 o.a7 o.h7 o.a8 o.h8 o.a9 o.h9) K } := by
  refine ⟨[], ?_, ?_, fun xi5 E K => ?run⟩
  case run =>
    simp only [cc1__triplet_kernel_eq_skeleton]; unfold cc1__triplet_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := o.h2.eq_unread hf0; obtain rfl := o.h3.eq_unread hf1; obtain rfl := o.h4.eq_unread hf2; obtain rfl := o.h5.eq_unread hf3; obtain rfl := o.h6.eq_unread hf4; obtain rfl := o.h7.eq_unread hf5
    sl_exec (disch := first | exact hc0 | exact hc1)
    sl_step
    iapply Hk
    isplitl [H0]
    · iexists _; isplitr; · ipureintro; exact o.h2.read_unread _
      iexact H0
    isplitl [H1]
    · iexists _; isplitr; · ipureintro; exact o.h3.read_unread _
      iexact H1
    isplitl [H2]
    · iexists _; isplitr; · ipureintro; exact o.h4.read_unread _
      iexact H2
    isplitl [H3]
    · iexists _; isplitr; · ipureintro; exact o.h5.read_unread _
      iexact H3
    isplitl [H4]
    · iexists _; isplitr; · ipureintro; exact o.h6.read_unread _
      iexact H4
    isplitl [H5]
    · iexists _; isplitr; · ipureintro; exact o.h7.read_unread _
      iexact H5
    isplitl [HS0]; · iexists _; iexact HS0
    iexists _; iexact HS1

end Cert.KernelIdeal.Hand

end
-- ==== Proof.KI.TripRunB.lean ====
import proofs.«429060_j8641474200296_2_alg».proof.Proof.KI.TripRunA
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 1000000 in
/-- Case B (column steps 1 to 6): the tile is accumulated into the carried values; nothing is stored. -/
noncomputable def kernelRun1_B (c : Dev nD) (i : grid1.Coords) (o : Ops) (hc0 : ¬cond1_0 i) (hc1 : ¬cond1_1 i)
    (x0 : Vec F S1024x128 .bf16) (x1 : Vec F S8192x128 .bf16) (x2 : Vec F S1024x1 .i32) (x3 : Vec F S1x8192 .i32) (x4 : Vec F S1024x1 .f32) (xs0 : Vec F S1024x1 .f32) (xs1 : Vec F S1024x1 .f32) :
    Σ' (L5 : List (View.Piece (Elt F) S1024x1 .f32)) (LS0 : List (View.Piece (Elt F) S1024x1 .f32)), { LS1 : List (View.Piece (Elt F) S1024x1 .f32) //
      ∀ (xi5 : Vec F S1024x1 .f32) (E : Set ℕ) (K : PUnit → sProp 𝕄),
        iprop(owns (c : Thread nD τ) o.a2 fullShare x0 ∗ owns (c : Thread nD τ) o.a3 fullShare x1 ∗ owns (c : Thread nD τ) o.a4 fullShare x2 ∗ owns (c : Thread nD τ) o.a5 fullShare x3 ∗ owns (c : Thread nD τ) o.a6 fullShare x4 ∗ owns (c : Thread nD τ) o.a7 fullShare xi5 ∗ owns (c : Thread nD τ) o.a8 fullShare xs0 ∗ owns (c : Thread nD τ) o.a9 fullShare xs1
            ∗ (iprop(owns (c : Thread nD τ) o.a2 fullShare x0 ∗ owns (c : Thread nD τ) o.a3 fullShare x1 ∗ owns (c : Thread nD τ) o.a4 fullShare x2 ∗ owns (c : Thread nD τ) o.a5 fullShare x3 ∗ owns (c : Thread nD τ) o.a6 fullShare x4 ∗ owns (c : Thread nD τ) o.a7 fullShare xi5 ∗ (∃ f, o.a8.view.loc (c : Thread nD τ) ↦[o.a8.view.set]{fullShare} o.a8.view.writes (Elt F) f LS0) ∗ (∃ f, o.a9.view.loc (c : Thread nD τ) ↦[o.a9.view.set]{fullShare} o.a9.view.writes (Elt F) f LS1)) -∗ K ⟨⟩))
          ⊢ wp frame (wpE (defs₀ (F := F)) Variants.none c none) E (cc1__triplet_kernel i o.a2 o.h2 o.a3 o.h3 o.a4 o.h4 o.a5 o.h5 o.a6 o.h6 o.a7 o.h7 o.a8 o.h8 o.a9 o.h9) K } := by
  refine ⟨[], ?_, ?_, fun xi5 E K => ?run⟩
  case run =>
    simp only [cc1__triplet_kernel_eq_skeleton]; unfold cc1__triplet_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := o.h2.eq_unread hf0; obtain rfl := o.h3.eq_unread hf1; obtain rfl := o.h4.eq_unread hf2; obtain rfl := o.h5.eq_unread hf3; obtain rfl := o.h6.eq_unread hf4; obtain rfl := o.h7.eq_unread hf5; obtain rfl := o.h8.eq_unread hfs0; obtain rfl := o.h9.eq_unread hfs1
    sl_exec (disch := first | exact hc0 | exact hc1)
    sl_step
    iapply Hk
    isplitl [H0]
    · iexists _; isplitr; · ipureintro; exact o.h2.read_unread _
      iexact H0
    isplitl [H1]
    · iexists _; isplitr; · ipureintro; exact o.h3.read_unread _
      iexact H1
    isplitl [H2]
    · iexists _; isplitr; · ipureintro; exact o.h4.read_unread _
      iexact H2
    isplitl [H3]
    · iexists _; isplitr; · ipureintro; exact o.h5.read_unread _
      iexact H3
    isplitl [H4]
    · iexists _; isplitr; · ipureintro; exact o.h6.read_unread _
      iexact H4
    isplitl [H5]
    · iexists _; isplitr; · ipureintro; exact o.h7.read_unread _
      iexact H5
    isplitl [HS0]; · iexists _; iexact HS0
    iexists _; iexact HS1

end Cert.KernelIdeal.Hand

end
-- ==== Proof.KI.TripRunC.lean ====
import proofs.«429060_j8641474200296_2_alg».proof.Proof.KI.TripRunB
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

set_option maxHeartbeats 1000000 in
/-- Case C (column step 7): the tile is accumulated, then the loss block is stored from the finished values and the counts. -/
noncomputable def kernelRun1_C (c : Dev nD) (i : grid1.Coords) (o : Ops) (hc0 : ¬cond1_0 i) (hc1 : cond1_1 i)
    (x0 : Vec F S1024x128 .bf16) (x1 : Vec F S8192x128 .bf16) (x2 : Vec F S1024x1 .i32) (x3 : Vec F S1x8192 .i32) (x4 : Vec F S1024x1 .f32) (xs0 : Vec F S1024x1 .f32) (xs1 : Vec F S1024x1 .f32) :
    Σ' (L5 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) o.a2 fullShare x0 ∗ owns (c : Thread nD τ) o.a3 fullShare x1 ∗ owns (c : Thread nD τ) o.a4 fullShare x2 ∗ owns (c : Thread nD τ) o.a5 fullShare x3 ∗ owns (c : Thread nD τ) o.a6 fullShare x4 ∗ (∃ d, owns (c : Thread nD τ) o.a7 fullShare d) ∗ owns (c : Thread nD τ) o.a8 fullShare xs0 ∗ owns (c : Thread nD τ) o.a9 fullShare xs1
            ∗ (iprop(owns (c : Thread nD τ) o.a2 fullShare x0 ∗ owns (c : Thread nD τ) o.a3 fullShare x1 ∗ owns (c : Thread nD τ) o.a4 fullShare x2 ∗ owns (c : Thread nD τ) o.a5 fullShare x3 ∗ owns (c : Thread nD τ) o.a6 fullShare x4 ∗ (∃ f, o.a7.view.loc (c : Thread nD τ) ↦[o.a7.view.set]{fullShare} o.a7.view.writes (Elt F) f L5) ∗ (∃ f, o.a8.view.loc (c : Thread nD τ) ↦[o.a8.view.set]{fullShare} o.a8.view.writes (Elt F) f LS0) ∗ (∃ f, o.a9.view.loc (c : Thread nD τ) ↦[o.a9.view.set]{fullShare} o.a9.view.writes (Elt F) f LS1)) -∗ K ⟨⟩))
          ⊢ wp frame (wpE (defs₀ (F := F)) Variants.none c none) E (cc1__triplet_kernel i o.a2 o.h2 o.a3 o.h3 o.a4 o.h4 o.a5 o.h5 o.a6 o.h6 o.a7 o.h7 o.a8 o.h8 o.a9 o.h9) K } := by
  refine ⟨?_, ?_, ?_, fun E K => ?run⟩
  case run =>
    simp only [cc1__triplet_kernel_eq_skeleton]; unfold cc1__triplet_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := o.h2.eq_unread hf0; obtain rfl := o.h3.eq_unread hf1; obtain rfl := o.h4.eq_unread hf2; obtain rfl := o.h5.eq_unread hf3; obtain rfl := o.h6.eq_unread hf4; obtain rfl := o.h8.eq_unread hfs0; obtain rfl := o.h9.eq_unread hfs1
    sl_exec (disch := first | exact hc0 | exact hc1)
    sl_step
    iapply Hk
    isplitl [H0]
    · iexists _; isplitr; · ipureintro; exact o.h2.read_unread _
      iexact H0
    isplitl [H1]
    · iexists _; isplitr; · ipureintro; exact o.h3.read_unread _
      iexact H1
    isplitl [H2]
    · iexists _; isplitr; · ipureintro; exact o.h4.read_unread _
      iexact H2
    isplitl [H3]
    · iexists _; isplitr; · ipureintro; exact o.h5.read_unread _
      iexact H3
    isplitl [H4]
    · iexists _; isplitr; · ipureintro; exact o.h6.read_unread _
      iexact H4
    isplitl [H5]; · iexists _; iexact H5
    isplitl [HS0]; · iexists _; iexact HS0
    iexists _; iexact HS1

end Cert.KernelIdeal.Hand

end
-- ==== Proof.KI.TripDat.lean ====
import proofs.«429060_j8641474200296_2_alg».proof.Proof.KI.TripRunC
import proofs.«429060_j8641474200296_2_alg».proof.Proof.Gen.KernelIdeal.Launch
import proofs.«429060_j8641474200296_2_alg».proof.Proof.Gen.KernelIdeal.Skeleton
import proofs.«429060_j8641474200296_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

/-- Pieces written over junk and read back through `v`: what a covered buffer holds. -/
def rd (v : View sig .tc .vmem S1024x1 .f32) (L : List (View.Piece (Elt F) S1024x1 .f32)) : Vec F S1024x1 .f32 :=
  v.read (Elt F) (v.writes (Elt F) v.junk L)

/-- What a run's pieces leave in the output window's buffer, the running sum and the running maximum. -/
def outs3 (L5 LS0 LS1 : List (View.Piece (Elt F) S1024x1 .f32)) : Vec F S1024x1 .f32 × Vec F S1024x1 .f32 × Vec F S1024x1 .f32 :=
  (rd VO1_5 L5, rd VS1_0 LS0, rd VS1_1 LS1)

/-- Every index of the block lies in some piece. -/
abbrev Covers (L : List (View.Piece (Elt F) S1024x1 .f32)) : Prop := ∀ y : S1024x1.Idx, ∃ p ∈ L, y ∈ p.1.set

section Cases
variable (c : Dev nD) (i : grid1.Coords) (o : Ops) (x0 : Vec F S1024x128 .bf16) (x1 : Vec F S8192x128 .bf16)
  (x2 : Vec F S1024x1 .i32) (x3 : Vec F S1x8192 .i32) (x4 : Vec F S1024x1 .f32) (xs0 xs1 : Vec F S1024x1 .f32)

/-- Each case stores whole blocks, so its pieces cover every buffer it writes. -/
theorem coverA (hc0 : cond1_0 i) (hc1 : ¬cond1_1 i) :
    Covers (kernelRun1_A c i o hc0 hc1 x0 x1 x2 x3 x4).2.1 ∧ Covers (kernelRun1_A c i o hc0 hc1 x0 x1 x2 x3 x4).2.2.1 :=
  ⟨View.cover_of_tiledL _ S1024x1.size (by sl_kernel_rfl), View.cover_of_tiledL _ S1024x1.size (by sl_kernel_rfl)⟩
theorem coverB (hc0 : ¬cond1_0 i) (hc1 : ¬cond1_1 i) :
    Covers (kernelRun1_B c i o hc0 hc1 x0 x1 x2 x3 x4 xs0 xs1).2.1 ∧ Covers (kernelRun1_B c i o hc0 hc1 x0 x1 x2 x3 x4 xs0 xs1).2.2.1 :=
  ⟨View.cover_of_tiledL _ S1024x1.size (by sl_kernel_rfl), View.cover_of_tiledL _ S1024x1.size (by sl_kernel_rfl)⟩
theorem coverC (hc0 : ¬cond1_0 i) (hc1 : cond1_1 i) :
    Covers (kernelRun1_C c i o hc0 hc1 x0 x1 x2 x3 x4 xs0 xs1).1 ∧ Covers (kernelRun1_C c i o hc0 hc1 x0 x1 x2 x3 x4 xs0 xs1).2.1
      ∧ Covers (kernelRun1_C c i o hc0 hc1 x0 x1 x2 x3 x4 xs0 xs1).2.2.1 :=
  ⟨View.cover_of_tiledL _ S1024x1.size (by sl_kernel_rfl), View.cover_of_tiledL _ S1024x1.size (by sl_kernel_rfl),
    View.cover_of_tiledL _ S1024x1.size (by sl_kernel_rfl)⟩

end Cases

section Points
variable (c : Dev nD) (t : Fin cfg1.N)

/-- Each case's run at point `t`: the point's operands and blocks, B and C over the carried values `s0`, `s1`. -/
abbrev runAtA (h0 : t.val % 8 = 0) (h1 : ¬t.val % 8 = 7) :=
  kernelRun1_A c (grid1.coords t) (opsAt t) ((hcond1_0 t).mpr h0) (fun h => h1 ((hcond1_1 t).mp h)) (iblk1 V c 0 t) (iblk1 V c 1 t) (iblk1 V c 2 t) (iblk1 V c 3 t) (iblk1 V c 4 t)
abbrev runAtB (h0 : ¬t.val % 8 = 0) (h1 : ¬t.val % 8 = 7) (s0 s1 : Vec F S1024x1 .f32) :=
  kernelRun1_B c (grid1.coords t) (opsAt t) (fun h => h0 ((hcond1_0 t).mp h)) (fun h => h1 ((hcond1_1 t).mp h)) (iblk1 V c 0 t) (iblk1 V c 1 t) (iblk1 V c 2 t) (iblk1 V c 3 t) (iblk1 V c 4 t) s0 s1
abbrev runAtC (h0 : ¬t.val % 8 = 0) (h1 : t.val % 8 = 7) (s0 s1 : Vec F S1024x1 .f32) :=
  kernelRun1_C c (grid1.coords t) (opsAt t) (fun h => h0 ((hcond1_0 t).mp h)) ((hcond1_1 t).mpr h1) (iblk1 V c 0 t) (iblk1 V c 1 t) (iblk1 V c 2 t) (iblk1 V c 3 t) (iblk1 V c 4 t) s0 s1

/-- What each case leaves at point `t`. -/
def ptA (h0 : t.val % 8 = 0) (h1 : ¬t.val % 8 = 7) : Vec F S1024x1 .f32 × Vec F S1024x1 .f32 × Vec F S1024x1 .f32 :=
  outs3 (runAtA V c t h0 h1).1 (runAtA V c t h0 h1).2.1 (runAtA V c t h0 h1).2.2.1
def ptB (h0 : ¬t.val % 8 = 0) (h1 : ¬t.val % 8 = 7) (s0 s1 : Vec F S1024x1 .f32) : Vec F S1024x1 .f32 × Vec F S1024x1 .f32 × Vec F S1024x1 .f32 :=
  outs3 (runAtB V c t h0 h1 s0 s1).1 (runAtB V c t h0 h1 s0 s1).2.1 (runAtB V c t h0 h1 s0 s1).2.2.1
def ptC (h0 : ¬t.val % 8 = 0) (h1 : t.val % 8 = 7) (s0 s1 : Vec F S1024x1 .f32) : Vec F S1024x1 .f32 × Vec F S1024x1 .f32 × Vec F S1024x1 .f32 :=
  outs3 (runAtC V c t h0 h1 s0 s1).1 (runAtC V c t h0 h1 s0 s1).2.1 (runAtC V c t h0 h1 s0 s1).2.2.1

end Points

/-- The output window's buffer and the two running values after the body at position `n`: the case `n % 8` selects,
    cases B and C over what position `n - 1` left. -/
def outsAt1 (c : Dev nD) : (n : ℕ) → n < cfg1.N → Vec F S1024x1 .f32 × Vec F S1024x1 .f32 × Vec F S1024x1 .f32
  | 0, hn => ptA V c ⟨0, hn⟩ (Nat.zero_mod _) (by (try dsimp only); omega)
  | n + 1, hn =>
    if h0 : (n + 1) % 8 = 0 then ptA V c ⟨n + 1, hn⟩ h0 (by (try dsimp only); omega)
    else if h1 : (n + 1) % 8 = 7 then
      ptC V c ⟨n + 1, hn⟩ h0 h1 (outsAt1 c n (Nat.lt_of_succ_lt hn)).2.1 (outsAt1 c n (Nat.lt_of_succ_lt hn)).2.2
    else ptB V c ⟨n + 1, hn⟩ h0 h1 (outsAt1 c n (Nat.lt_of_succ_lt hn)).2.1 (outsAt1 c n (Nat.lt_of_succ_lt hn)).2.2

section Eqs
variable (c : Dev nD) (t : Fin cfg1.N)

/-- The two running values the point before `t` left. -/
abbrev prev1 : Vec F S1024x1 .f32 × Vec F S1024x1 .f32 :=
  (outsAt1 V c (t.val - 1) (Nat.lt_of_le_of_lt (Nat.sub_le _ _) t.isLt)).2

theorem outsAt1_A (h0 : t.val % 8 = 0) (h1 : ¬t.val % 8 = 7) : outsAt1 V c t.val t.isLt = ptA V c t h0 h1 := by
  obtain ⟨n, hn⟩ := t
  cases n with
  | zero => rfl
  | succ n => exact dif_pos h0

theorem outsAt1_B (h0 : ¬t.val % 8 = 0) (h1 : ¬t.val % 8 = 7) :
    outsAt1 V c t.val t.isLt = ptB V c t h0 h1 (prev1 V c t).1 (prev1 V c t).2 := by
  obtain ⟨n, hn⟩ := t
  cases n with
  | zero => exact absurd (Nat.zero_mod _) h0
  | succ n => exact (dif_neg h0).trans ((dif_neg h1).trans rfl)

theorem outsAt1_C (h0 : ¬t.val % 8 = 0) (h1 : t.val % 8 = 7) :
    outsAt1 V c t.val t.isLt = ptC V c t h0 h1 (prev1 V c t).1 (prev1 V c t).2 := by
  obtain ⟨n, hn⟩ := t
  cases n with
  | zero => exact absurd (Nat.zero_mod _) h0
  | succ n => exact (dif_neg h0).trans ((dif_pos h1).trans rfl)

end Eqs

/-- The region invariant before position `n`: the untouched rest, the two scratches at anything before the first point and
    at what position `n - 1` left afterwards. -/
def PhiS1 (c : Dev nD) : (n : ℕ) → n ≤ cfg1.N → sProp 𝕄
  | 0, _ => Pipeline.ΦA spec1 c
  | n + 1, hn => rest1 c (owns (c : Thread nD τ) scM1_0 fullShare (outsAt1 V c n hn).2.1) (owns (c : Thread nD τ) scM1_1 fullShare (outsAt1 V c n hn).2.2)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = rest1 c (owns (c : Thread nD τ) scM1_0 fullShare (outsAt1 V c n hn).2.1) (owns (c : Thread nD τ) scM1_1 fullShare (outsAt1 V c n hn).2.2) := rfl

theorem PhiS1_pos (c : Dev nD) (n : ℕ) (h : n ≤ cfg1.N) (hz : n ≠ 0) :
    PhiS1 V c n h = rest1 c (owns (c : Thread nD τ) scM1_0 fullShare (outsAt1 V c (n - 1) (by omega)).2.1) (owns (c : Thread nD τ) scM1_1 fullShare (outsAt1 V c (n - 1) (by omega)).2.2) := by
  cases n with
  | zero => exact absurd rfl hz
  | succ n => rfl

/-- Region 1's proof data on core `c`: the arrays as the region is entered, each input's block, and the values `outsAt1` follows. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem before1_4 (c : Dev nD) (t : Fin cfg1.N) (d) : (dat1 V c).before 4 t d = iblk1 V c 4 t :=
  (dat1 V c).before_in_eq_fetched 4 rfl (fun _ => rfl) (fun _ _ _ => rfl) (fun _ => rfl) t d

theorem q1_0 (c : Dev nD) : (dat1 V c).q 0 = fullShare.left := by dsimp only [dat1]
theorem q1_1 (c : Dev nD) : (dat1 V c).q 1 = fullShare.right := by dsimp only [dat1]
theorem q1_2 (c : Dev nD) : (dat1 V c).q 2 = fullShare := by dsimp only [dat1]
theorem q1_3 (c : Dev nD) : (dat1 V c).q 3 = fullShare := by dsimp only [dat1]
theorem q1_4 (c : Dev nD) : (dat1 V c).q 4 = fullShare := by dsimp only [dat1]
theorem q1_5 (c : Dev nD) : (dat1 V c).q 5 = fullShare := by dsimp only [dat1]
theorem owed1 (c : Dev nD) (t : Fin (cfg1.N + 1)) : (dat1 V c).owed t = 0 := by dsimp only [dat1]

end Cert.KernelIdeal.Hand

end
-- ==== Proof.KI.Fold.lean ====
import proofs.«429060_j8641474200296_2_alg».proof.Proof.Gen.KernelIdeal.Regions
import proofs.«429060_j8641474200296_2_alg».proof.Proof.KI.Norm
import proofs.«429060_j8641474200296_2_alg».proof.Proof.KI.TripDat
set_option maxRecDepth 16384
noncomputable section
namespace Cert.KernelIdeal.Hand
open Cert.KernelIdeal Cert.KernelIdeal.Gen
open Idealize.ShloMosaic Idealize.ShloMosaic.TcCoe
variable {F : FTy → Type} [FloatOps F]

variable (m : (ℓ : Loc nD τ sig) → Buf (Elt F) ℓ)

-- The valuations at the five boundaries of the program, each folded from the one before, starting at the memory `m`.
abbrev W0 : Dev nD → Valuation τ sig (Elt F) := fun c b => m (c, b)
abbrev V0 : (c : Dev nD) → (b : Ref sig .tc) → Buf (Elt F) ((c : Thread nD τ).loc b) := fun c b => W0 m c b
def W1 (c : Dev nD) : Valuation τ sig (Elt F) :=
  Pipeline.withArrays spec0 c (W0 m c) fun w => (dat0 (V0 m) c).arrAt w cfg0.N
abbrev W2 : Dev nD → Valuation τ sig (Elt F) := fun c => StableHlo.after hostOps1 (W1 m c)
abbrev V2 : (c : Dev nD) → (b : Ref sig .tc) → Buf (Elt F) ((c : Thread nD τ).loc b) := fun c b => W2 m c b
def W3 (c : Dev nD) : Valuation τ sig (Elt F) :=
  Function.update (W2 m c) (Proc.devRef .tc main_v23) ((dat1 (V2 m) c).arrAt 5 cfg1.N)
abbrev W4 : Dev nD → Valuation τ sig (Elt F) := fun c => StableHlo.after hostOps2 (W3 m c)

variable (c : Dev nD)

theorem W1_arr (w : Fin cfg0.W) : W1 m c (Proc.devRef .tc (Pipeline.arrRef spec0 w)) = (dat0 (V0 m) c).arrAt w cfg0.N :=
  Pipeline.withArrays_arr spec0 launch0.win.arr_inj c _ _ w
theorem W1_of_ne (b : Ref sig .tc) (hb : ∀ w, Pipeline.arrRef spec0 w ≠ b) : W1 m c (Proc.devRef .tc b) = W0 m c (Proc.devRef .tc b) :=
  Pipeline.withArrays_of_ne spec0 c _ _ b hb
theorem W1_main_v0 : W1 m c (Proc.devRef .tc main_v0) = (dat0 (V0 m) c).arrAt 1 cfg0.N := W1_arr m c 1
theorem W1_main_arg1 : W1 m c (Proc.devRef .tc main_arg1) = m ((c : Thread nD τ).loc main_arg1) := W1_of_ne m c main_arg1 (by decide)
theorem W3_main_v23 : W3 m c (Proc.devRef .tc main_v23) = (dat1 (V2 m) c).arrAt 5 cfg1.N := Function.update_self _ _ _
theorem W3_of_ne (r : Ref sig .tc) (h : r ≠ main_v23) : W3 m c (Proc.devRef .tc r) = W2 m c (Proc.devRef .tc r) :=
  Function.update_of_ne (StableHlo.devRef_ne_of_ne h) _ _

-- Three steps of the fold that leave `r` alone compose.
theorem W4_eq_W1 (r : Ref sig .tc) (h2 : r ∉ hostOps2_W) (h3 : r ≠ main_v23) (h1 : r ∉ hostOps1_W) :
    W4 m c (Proc.devRef .tc r) = W1 m c (Proc.devRef .tc r) :=
  (StableHlo.after_of_writes_sub hostOps2 _ hostOps2_writes h2).trans <| (W3_of_ne m c r h3).trans
    (StableHlo.after_of_writes_sub hostOps1 _ hostOps1_writes h1)
theorem W4_main_arg0 : W4 m c (Proc.devRef .tc main_arg0) = m ((c : Thread nD τ).loc main_arg0) :=
  (W4_eq_W1 m c _ (by decide) (by decide) (by decide)).trans <| (W1_arr m c 0).trans ((dat0 (V0 m) c).arrAt_in 0 rfl _)
theorem W4_main_arg1 : W4 m c (Proc.devRef .tc main_arg1) = m ((c : Thread nD τ).loc main_arg1) :=
  (W4_eq_W1 m c _ (by decide) (by decide) (by decide)).trans (W1_main_arg1 m c)

-- Only the last window's array changes over the region, and it is the one the fold updates.
theorem hF1 (w : Fin cfg1.W) : (dat1 (V2 m) c).arrAt w cfg1.N = W3 m c (Proc.devRef .tc (Pipeline.arrRef spec1 w)) := by
  by_cases h : w = 5
  · subst h; exact (W3_main_v23 m c).symm
  · exact ((dat1 (V2 m) c).arrAt_in w (by revert w; decide) _).trans
      ((A_eq1 (V2 m) c w).trans (W3_of_ne m c _ (by revert w; decide)).symm)

end Cert.KernelIdeal.Hand
end
-- ==== Proof.KI.TripFrame.lean ====
import proofs.«429060_j8641474200296_2_alg».proof.Proof.KI.TripDat
import proofs.«429060_j8641474200296_2_alg».proof.Proof.Gen.KernelIdeal.Launch
import proofs.«429060_j8641474200296_2_alg».proof.Proof.Gen.KernelIdeal.Skeleton
import proofs.«429060_j8641474200296_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

/-- At any position the invariant gives the untouched rest back: the scratches' named contents are forgotten. -/
theorem PhiS1_out (c : Dev nD) (n : ℕ) (h : n ≤ cfg1.N) : PhiS1 V c n h ⊢ Pipeline.ΦA spec1 c := by
  cases n with
  | zero => exact Idealize.SL.BI.Entails.refl _
  | succ n =>
    rw [PhiS1_succ V c n h, PhiA1_eq]; unfold rest1
    iintro ⟨⟨HR0, HR1, HR2, HR3, HS0, HS1⟩, Hg⟩
    isplitl [HR0 HR1 HR2 HR3 HS0 HS1]
    · isplitl [HR0]; · iexact HR0
      isplitl [HR1]; · iexact HR1
      isplitl [HR2]; · iexact HR2
      isplitl [HR3]; · iexact HR3
      isplitl [HS0]; · iexists _; iexact HS0
      iexists _; iexact HS1
    iexact Hg

set_option maxHeartbeats 4800000 in
/-- The body at any point: the column step selects the case; the invariant hands its run the two scratches (case A
    resets them, so there they may hold anything) and takes them back at the contents the run's covering pieces leave. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ, PhiS1_castSucc V c t]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  have hN : t.val < 64 := lt_of_lt_of_eq t.isLt (show cfg1.N = 64 from N_1)
  by_cases h0 : t.val % 8 = 0
  · have h1 : ¬t.val % 8 = 7 := by omega
    rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
    rw [outsAt1_A V c t h0 h1]
    refine BIBase.Entails.trans (sep_mono_l (PhiS1_out V c t.val _)) ?_
    show iprop(Pipeline.ΦA spec1 c ∗ _) ⊢ _
    rw [PhiA1_eq]; unfold rest1; dsimp only [ptA, outs3, rd]
    iintro ⟨⟨⟨HR0, HR1, HR2, HR3, HS0, HS1⟩, Hg⟩, Ho, ⟨%d0, H0⟩, ⟨%d1, H1⟩, ⟨%d2, H2⟩, ⟨%d3, H3⟩, ⟨%d4, H4⟩, ⟨%d5, H5⟩⟩
    iapply ((runAtA V c t h0 h1).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, ⟨%es0, HS0⟩, ⟨%es1, HS1⟩⟩
    isplitl [HR0 HR1 HR2 HR3 HS0 HS1 Hg]
    · isplitl [HR0 HR1 HR2 HR3 HS0 HS1]
      · isplitl [HR0]; · iexact HR0
        isplitl [HR1]; · iexact HR1
        isplitl [HR2]; · iexact HR2
        isplitl [HR3]; · iexact HR3
        isplitl [HS0]
        · unfold owns; iexists _; isplitr
          swap; · iexact HS0
          ipureintro; exact View.read_writes_of_cover _ _ _ _ _ (coverA _ _ _ _ _ _ _ _ _ _).1
        unfold owns; iexists _; isplitr
        swap; · iexact HS1
        ipureintro; exact View.read_writes_of_cover _ _ _ _ _ (coverA _ _ _ _ _ _ _ _ _ _).2
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := fun e => h0 (by rw [e])
    rw [PhiS1_pos V c _ _ hz]
    by_cases h1 : t.val % 8 = 7
    · rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold rest1; dsimp only [ptC, outs3, rd]
      iintro ⟨⟨⟨HR0, HR1, HR2, HR3, HS0, HS1⟩, Hg⟩, Ho, ⟨%d0, H0⟩, ⟨%d1, H1⟩, ⟨%d2, H2⟩, ⟨%d3, H3⟩, ⟨%d4, H4⟩, ⟨%d5, H5⟩⟩
      iapply ((runAtC V c t h0 h1 _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [HR0 HR1 HR2 HR3 HS0 HS1 Hg]
      · isplitl [HR0 HR1 HR2 HR3 HS0 HS1]
        · isplitl [HR0]; · iexact HR0
          isplitl [HR1]; · iexact HR1
          isplitl [HR2]; · iexact HR2
          isplitl [HR3]; · iexact HR3
          isplitl [HS0]
          · unfold owns; iexists _; isplitr
            swap; · iexact HS0
            ipureintro; exact View.read_writes_of_cover _ _ _ _ _ (coverC _ _ _ _ _ _ _ _ _ _ _ _).2.1
          unfold owns; iexists _; isplitr
          swap; · iexact HS1
          ipureintro; exact View.read_writes_of_cover _ _ _ _ _ (coverC _ _ _ _ _ _ _ _ _ _ _ _).2.2
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverC _ _ _ _ _ _ _ _ _ _ _ _).1
    · rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold rest1; dsimp only [ptB, outs3, rd]
      iintro ⟨⟨⟨HR0, HR1, HR2, HR3, HS0, HS1⟩, Hg⟩, Ho, ⟨%d0, H0⟩, ⟨%d1, H1⟩, ⟨%d2, H2⟩, ⟨%d3, H3⟩, ⟨%d4, H4⟩, ⟨%d5, H5⟩⟩
      iapply ((runAtB V c t h0 h1 _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HR0 HR1 HR2 HR3 HS0 HS1 Hg]
      · isplitl [HR0 HR1 HR2 HR3 HS0 HS1]
        · isplitl [HR0]; · iexact HR0
          isplitl [HR1]; · iexact HR1
          isplitl [HR2]; · iexact HR2
          isplitl [HR3]; · iexact HR3
          isplitl [HS0]
          · unfold owns; iexists _; isplitr
            swap; · iexact HS0
            ipureintro; exact View.read_writes_of_cover _ _ _ _ _ (coverB _ _ _ _ _ _ _ _ _ _ _ _).1
          unfold owns; iexists _; isplitr
          swap; · iexact HS1
          ipureintro; exact View.read_writes_of_cover _ _ _ _ _ (coverB _ _ _ _ _ _ _ _ _ _ _ _).2
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := Idealize.SL.BI.Entails.refl _

theorem hout1 (c : Dev nD) : (dat1 V c).Φ (Fin.last cfg1.N) ⊢ Pipeline.ΦA spec1 c :=
  PhiS1_out V c (Fin.last cfg1.N).val (Nat.le_of_lt_succ (Fin.last cfg1.N).isLt)

end Cert.KernelIdeal.Hand

end
-- ==== Proof.KI.Launch.lean ====
import proofs.«429060_j8641474200296_2_alg».proof.Proof.KI.Fold
import proofs.«429060_j8641474200296_2_alg».proof.Proof.KI.TripFrame
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (m : (ℓ : Loc nD τ sig) → Buf (Elt F) ℓ) (ρ : Dev nD → PrngReg)

-- The six windows of the second region lie on five distinct arrays.
theorem arrBufs1_eq (c : Dev nD) (V : (b : Ref sig .tc) → Buf (Elt F) ((c : Thread nD τ).loc b)) :
    (Pipeline.arrBufs spec1 c V : sProp 𝕄)
      = iprop((((c : Thread nD τ).loc main_v0) ↦{fullShare} V main_v0) ∗ (((c : Thread nD τ).loc main_v21) ↦{fullShare} V main_v21)
          ∗ (((c : Thread nD τ).loc main_v22) ↦{fullShare} V main_v22) ∗ (((c : Thread nD τ).loc main_v20) ↦{fullShare} V main_v20)
          ∗ (((c : Thread nD τ).loc main_v23) ↦{fullShare} V main_v23)) := by
  unfold Pipeline.arrBufs
  exact bigSep_eq_bigSepL_of_eq ([main_v0, main_v21, main_v22, main_v20, main_v23] : List (Ref sig .tc)) (by decide) (by decide) _

theorem arrays1_eq {c : Dev nD} (dat : Dat τ (Elt F) Unit ℕ (UR sig nD τ) ℕ cfg1 c)
    (F' : (w : Fin cfg1.W) → Buf (Elt F) ((cfg1.win w).arr.view.loc (c : Thread nD τ))) :
    (dat.arrays F' : sProp 𝕄)
      = iprop((((c : Thread nD τ).loc main_v0) ↦{dat.q 0} F' 0) ∗ (((c : Thread nD τ).loc main_v0) ↦{dat.q 1} F' 1)
          ∗ (((c : Thread nD τ).loc main_v21) ↦{dat.q 2} F' 2) ∗ (((c : Thread nD τ).loc main_v22) ↦{dat.q 3} F' 3)
          ∗ (((c : Thread nD τ).loc main_v20) ↦{dat.q 4} F' 4) ∗ (((c : Thread nD τ).loc main_v23) ↦{fullShare} F' 5)) := by
  unfold Dat.arrays
  rw [bigSep_W1, (arr_whole1 0).set_eq_univ, (arr_whole1 2).set_eq_univ, (arr_whole1 3).set_eq_univ,
    (arr_whole1 4).set_eq_univ, (arr_whole1 5).set_eq_univ]
  rfl

section Arrays1

variable (V : (c : Dev nD) → (b : Ref sig .tc) → Buf (Elt F) ((c : Thread nD τ).loc b)) (c : Dev nD)
  (V₀ V' : (b : Ref sig .tc) → Buf (Elt F) ((c : Thread nD τ).loc b))
  (F' : (w : Fin cfg1.W) → Buf (Elt F) ((cfg1.win w).arr.view.loc (c : Thread nD τ))) (hF : ∀ w, F' w = V' (Pipeline.arrRef spec1 w))

include hF in
-- The whole of the array two windows share is its two half shares, one for each; every other array is one window's.
theorem arrays1_iff : (unscopedBufs c V' : sProp 𝕄) ⊣⊢ iprop((dat1 V c).arrays F' ∗ Pipeline.unscopedRest spec1 c V') := by
  have hsp : (unscopedBufs c V' : sProp 𝕄) = iprop(Pipeline.arrBufs spec1 c V' ∗ Pipeline.unscopedRest spec1 c V') :=
    Pipeline.unscopedBufs_split₀ (Pipeline.pin (pcfgs (F := F)) adm) 1 winFacts₀1.arr_unscoped c V'
  rw [hsp, arrBufs1_eq, arrays1_eq, q1_0, q1_1, q1_2, q1_3, q1_4, hF 0, hF 1, hF 2, hF 3, hF 4, hF 5]
  constructor
  · iintro ⟨⟨H0, H2, H3, H4, H5⟩, Hr⟩
    ihave H0' := (pointsTo_share (PosShare.mem_left_op_right fullShare)).1 $$ H0
    icases H0' with ⟨H0l, H0r⟩
    iframe
  · iintro ⟨⟨H0l, H0r, H2, H3, H4, H5⟩, Hr⟩
    iframe H2 H3 H4 H5 Hr
    iapply (pointsTo_share (PosShare.mem_left_op_right fullShare)).2
    iframe

include hF in
theorem unscopedBufs_of_arrays1 (hrest : ∀ b, b ∉ Finset.univ.image (Pipeline.arrRef spec1) → V' b = V₀ b) :
    iprop((dat1 V c).arrays F' ∗ Pipeline.unscopedRest spec1 c V₀) ⊢ (unscopedBufs c V' : sProp 𝕄) := by
  have hr : (Pipeline.unscopedRest spec1 c V₀ : sProp 𝕄)
      = Pipeline.unscopedRest spec1 c V' := by
    unfold Pipeline.unscopedRest
    exact bigSep_congr fun b hb => by rw [hrest b (Finset.mem_sdiff.mp hb).2]
  rw [hr]
  exact (arrays1_iff V c V' F' hF).2

end Arrays1

def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
-- The state between two steps: every unscoped buffer held at the valuation `W`, the register and the debts riding along.
abbrev T (W : Dev nD → Valuation τ sig (Elt F)) (c : Dev nD) : sProp 𝕄 :=
  iprop(StableHlo.held (c : Thread nD τ) (Pipeline.ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

theorem noPref : ∀ (p : Fin 2) (c : Dev nD),
    (BI.emp : sProp 𝕄) ⊢ Pipeline.prefHeld (pcfgs (F := F) p).pre c (fun _ => fullShare) (adm p).1
  | ⟨0, _⟩, _ | ⟨1, _⟩, _ => by
    unfold Pipeline.prefHeld; rw [show (Finset.univ : Finset (Fin 0)) = ∅ from rfl, BI.bigSep_empty]

section Thread

variable (c : Dev nD) (W : Dev nD → Valuation τ sig (Elt F)) {B : Set (SemLoc sig × Unit)}

-- Entering a region: its arrays `A` are split out of the held buffers, the rest `Z` passes by, nothing is owed.
theorem entry_of {A Z P : sProp 𝕄} (hs : (unscopedBufs c (fun b => W c b) : sProp 𝕄) ⊢ iprop(A ∗ Z)) (hp : (BI.emp : sProp 𝕄) ⊢ P) (hB : ∀ x, x ∈ B) :
    iprop(T W c ∗ BI.emp ∗ levAts L lv)
      ⊢ |={Set.univ}=> iprop(A ∗ P ∗ Pipeline.owesWithin c 0 B ∗ (∃ r, prngReg c r) ∗ Z) := by
  rw [Pipeline.unscopedBufs_held] at hs
  iintro ⟨⟨Hub, Hp, %O, HO⟩, -, -⟩
  ihave H := hs $$ Hub
  icases H with ⟨Ha, Hrest⟩
  imodintro
  isplitl [Ha]; · iexact Ha
  isplitr; · iapply hp; iempintro
  isplitl [HO]
  · iexists O; isplitr; · ipureintro; exact fun x _ => hB x
    iexact HO
  iframe

-- Leaving it: the arrays and the rest are joined back into the held buffers.
theorem exit_of {A Z : sProp 𝕄} (hj : iprop(A ∗ Z) ⊢ (unscopedBufs c (fun b => W c b) : sProp 𝕄)) :
    iprop(A ∗ Pipeline.owesWithin c 0 B ∗ (∃ r, prngReg c r) ∗ Z)
      ⊢ |={Set.univ}=> T W c := by
  rw [Pipeline.unscopedBufs_held] at hj
  iintro ⟨Ha, ⟨%O, -, HO⟩, HY, Hrest⟩
  imodintro
  isplitl [Ha Hrest]
  · iapply hj; iframe
  isplitl [HY]; · iexact HY
  iexists O; iexact HO

theorem in_of {S P Φ : sProp 𝕄} (h : iprop(S ∗ ∃ r, prngReg c r) ⊢ Φ) : iprop((∃ r, prngReg c r) ∗ P ∗ S) ⊢ Φ := by
  refine BIBase.Entails.trans ?_ h
  iintro ⟨Hp, -, Hr⟩
  iframe

theorem out_of {S Φ : sProp 𝕄} (h : Φ ⊢ iprop(S ∗ ∃ r, prngReg c r)) : Φ ⊢ iprop((∃ r, prngReg c r) ∗ BI.emp ∗ S) := by
  refine BIBase.Entails.trans h ?_
  iintro ⟨Hr, Hp⟩
  iframe
  iempintro

end Thread

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre := T (W0 m)
  post := T (W1 m)
  X c := iprop(∃ r, prngReg c r)
  Y c := iprop(∃ r, prngReg c r)
  Z c := Pipeline.unscopedRest spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    exact entry_of c (W0 m) hsplit (noPref 0 c) fun _ => Or.inl trivial
  hin c := in_of c .rfl
  hout c := by rw [Pipeline.ownSems0_none]; exact out_of c .rfl
  hexit c := by
    have hjoin := Pipeline.unscopedBufs_of_arrays (p := 0) (pcfgs (F := F)) adm
      launch0.win launch0.arr_whole c (pdats m) ((pdats m 0 c).share_full fun _ => rfl)
      (V0 m c) (fun b => W1 m c b) ((pdats m 0 c).arrAt · cfg0.N) (fun w => (W1_arr m c w).symm)
      fun b hb => W1_of_ne m c b fun w e => hb (Finset.mem_image.mpr ⟨w, Finset.mem_univ _, e⟩)
    exact exit_of c (W1 m) hjoin

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun c t => owed1 (V2 m) c t
  pre := T (W2 m)
  post := T (W3 m)
  X c := iprop(∃ r, prngReg c r)
  Y c := iprop(∃ r, prngReg c r)
  Z c := Pipeline.unscopedRest spec1 c (V2 m c)
  hentry c := by
    rw [Pipeline.ownSems0_none]
    have hsplit := (arrays1_iff (V2 m) c (V2 m c) ((pdats m 1 c).arrAt · 0) fun w => A_eq1 (V2 m) c w).1
    exact entry_of c (W2 m) hsplit (noPref 1 c) fun _ => Or.inl trivial
  hin c := in_of c (hin1 (V2 m) c)
  hout c := by rw [Pipeline.ownSems0_none]; exact out_of c (hout1 (V2 m) c)
  hexit c := by
    have hjoin := unscopedBufs_of_arrays1 (V2 m) c (V2 m c) (fun b => W3 m c b) ((pdats m 1 c).arrAt · cfg1.N) (hF1 m c)
      fun b hb => W3_of_ne m c b fun e => hb (Finset.mem_image.mpr ⟨5, Finset.mem_univ _, e.symm⟩)
    exact exit_of c (W3 m) hjoin

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]
theorem main_run (c : Dev nD) : main (F := F) c = Pipeline.Seg.run (segs m) :=
  main_segs adm (pdats m) () 𝒱₀ L lv _ _ (reg0 m) (reg1 m) rfl rfl c

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m)) (Tₙ := Tₙ m)
    (hch := ⟨fun _ => .rfl, fun _ => .rfl, fun _ => .rfl, fun _ => .rfl, fun c => by
      show T (W4 m) c ⊢ iprop(Tₙ m c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

end Cert.KernelIdeal.Hand
end
-- ==== Proof.Spec.lean ====
import Idealize.ShloMosaic.PureOps.Ideal
import Idealize.ShloMosaic.Lib.ValueIdx

noncomputable section

open scoped BigOperators

namespace Cert.Triplet

open Idealize.ShloMosaic

abbrev Mat : Type := Fin 8192 → Fin 128 → EReal

abbrev Lab : Type := Fin 8192 → BitVec 32

def eps : EReal := Ideal.ofBits .f32 0x2B8CBCCC#32

def negFill : EReal := Ideal.ofBits .f32 0xCE6E6B28#32

def halfFill : EReal := Ideal.ofBits .f32 0xCDEE6B28#32

def margin : EReal := Ideal.ofBits .f32 0x3E99999A#32

def zero : EReal := Ideal.ofBits .f32 0x00000000#32
def one : EReal := Ideal.ofBits .f32 0x3F800000#32
def nRows : EReal := Ideal.ofBits .f32 0x46000000#32

def sq (x : Mat) (i : Fin 8192) : EReal := zero + ∑ k : Fin 128, x i k * x i k

-- The rows divided by their norms, the norm floored at eps.
def nrm (x : Mat) : Mat := fun i k => Ideal.div (x i k) (max (Ideal.sqrt (sq x i)) eps)

def sim (f : Mat) (i j : Fin 8192) : EReal := ∑ k : Fin 128, f i k * f j k

-- Column j is a positive of row i: the same label, another row.
def isPos (l : Lab) (i j : Fin 8192) : Prop := l i = l j ∧ i ≠ j
instance (l : Lab) (i j : Fin 8192) : Decidable (isPos l i j) := by unfold isPos; infer_instance

def cntN (l : Lab) (i : Fin 8192) : ℕ := (Finset.univ.filter fun j : Fin 8192 => isPos l i j).card

def cntE (l : Lab) (i : Fin 8192) : EReal := ((cntN l i : ℝ) : EReal)

def posSum (f : Mat) (l : Lab) (i : Fin 8192) : EReal := ∑ j : Fin 8192, if isPos l i j then sim f i j else zero

-- Row i's similarities with the fill at same-label columns, its own among them.
def negRow (f : Mat) (l : Lab) (i j : Fin 8192) : EReal := if l i = l j then negFill else sim f i j

def negMax (f : Mat) (l : Lab) (i : Fin 8192) : EReal := Finset.univ.sup' ⟨0, Finset.mem_univ _⟩ (negRow f l i)

-- The row loss from a positives' sum p, a masked maximum n and a positives' count cnt.
def lossOf (p n cnt : EReal) : EReal :=
  max (margin + (if halfFill < n then n else zero) - (if zero < cnt then Ideal.div p (max cnt one) else zero)) zero

-- Column jj of tile J, the tiles being 1024 wide.
def col (J : Fin 8) (jj : Fin 1024) : Fin 8192 := ⟨J.val * 1024 + jj.val, by have := J.isLt; have := jj.isLt; omega⟩

def posTile (f : Mat) (l : Lab) (i : Fin 8192) (J : Fin 8) : EReal :=
  zero + ∑ jj : Fin 1024, if isPos l i (col J jj) then sim f i (col J jj) else zero

def negTile (f : Mat) (l : Lab) (i : Fin 8192) (J : Fin 8) : EReal :=
  max (Ideal.ofBits .f32 0xFF800000#32) (Finset.univ.sup' ⟨0, Finset.mem_univ _⟩ fun jj : Fin 1024 => negRow f l i (col J jj))

-- The running sum and the running maximum after the first n tiles.
def posAcc (f : Mat) (l : Lab) (i : Fin 8192) (n : ℕ) : EReal :=
  ((List.finRange 8).take n).foldl (fun a J => a + posTile f l i J) zero

def negAcc (f : Mat) (l : Lab) (i : Fin 8192) (n : ℕ) : EReal :=
  ((List.finRange 8).take n).foldl (fun a J => max a (negTile f l i J)) negFill

def lossKT (f : Mat) (l : Lab) (cnt : Fin 8192 → EReal) (i : Fin 8192) : EReal := lossOf (posAcc f l i 8) (negAcc f l i 8) (cnt i)

def hasNeg (l : Lab) (i : Fin 8192) : Prop := ∃ j : Fin 8192, l i ≠ l j
instance (l : Lab) (i : Fin 8192) : Decidable (hasNeg l i) := by unfold hasNeg; infer_instance

def negMaxR (f : Mat) (l : Lab) (i : Fin 8192) : EReal :=
  Finset.univ.sup' ⟨0, Finset.mem_univ _⟩ fun j : Fin 8192 => if l i ≠ l j then sim f i j else negFill

-- The reference's row loss: the margin plus the largest negative similarity less the mean positive similarity, floored at zero.
def lossR (f : Mat) (l : Lab) (i : Fin 8192) : EReal :=
  max (margin + (if hasNeg l i then negMaxR f l i else zero)
        - (if 0 < cntN l i then Ideal.div (posSum f l i) (((max (cntN l i) 1 : ℕ) : ℝ) : EReal) else zero)) zero

-- The mean over the rows.
def meanRows (r : Fin 8192 → EReal) : EReal := Ideal.div (zero + ∑ i : Fin 8192, r i) nRows

def kernelVal (x : Mat) (l : Lab) : EReal := meanRows (lossKT (nrm x) l (cntE l))

def refVal (x : Mat) (l : Lab) : EReal := meanRows (lossR (nrm x) l)

def Finite (x : Mat) : Prop := ∀ i k, ∃ r : ℝ, x i k = (r : EReal)

def InRange (l : Lab) : Prop := ∀ i, (l i).toInt ≥ 0 ∧ (l i).toInt < 8192

end Cert.Triplet

end
-- ==== Proof.Val.NormValue.lean ====
import proofs.«429060_j8641474200296_2_alg».proof.Proof.KI.Norm
import proofs.«429060_j8641474200296_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val.Norm

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {α : Type} {a b : ℕ} (v : (⟨2, ![a, 1]⟩ : Shape).Idx → α) (h : (⟨2, ![a, 1]⟩ : Shape).Broadcasts ⟨2, ![a, b]⟩)
    (i : Fin a) (k : Fin b) : broadcastTo ⟨2, ![a, b]⟩ v h (ix2 i k) = v (ix2 i (0 : Fin 1)) := by
  refine broadcastTo_apply v h (ix2 i k) (ix2 i (0 : Fin 1)) fun ax => ?_
  match ax with
  | ⟨0, _⟩ =>
    show i.val = if a = 1 then 0 else i.val
    split
    · have := i.isLt; omega
    · rfl
  | ⟨1, _⟩ => rfl

theorem lift_row (r : Fin 1024) (k' : Fin 128) :
    reduces_S1024x128_S1024.lift (ix1 r) k' = (ix2 r k' : S1024x128.Idx) := (eq_ix2 _).trans rfl

-- Each entry is divided by its row's norm, floored at eps.
theorem pay_apply (x : Vec Ideal S1024x128 .f32) (r : Fin 1024) (k : Fin 128) :
    k0_pay1 (F := Ideal) x (ix2 r k)
      = Ideal.div (x (ix2 r k)) (max (Ideal.sqrt (Cert.Triplet.zero + ∑ k' : Fin 128, x (ix2 r k') * x (ix2 r k'))) Cert.Triplet.eps) := by
  unfold k0_pay1
  refine congrArg (Ideal.div (x (ix2 r k))) ?_
  refine (broadcastTo_a1_ab_apply _ _ r k).trans ?_
  refine congrArg (fun z => max (Ideal.sqrt z) Cert.Triplet.eps) ?_
  refine (shapeCast_a_a1_apply _ _ r (0 : Fin 1)).trans ?_
  refine (Ideal.multiReduction_add_single _ _ reduces_S1024x128_S1024 (.inl rfl) rfl (ix1 r)).trans ?_
  rw [Cert.Triplet.zero, Ideal.ofBits_zero_f32, zero_add]
  show (∑ k' : Fin 128, (x (reduces_S1024x128_S1024.lift (ix1 r) k') * x (reduces_S1024x128_S1024.lift (ix1 r) k') : EReal)) = _
  refine Finset.sum_congr rfl fun k' _ => ?_
  rw [lift_row r k']

variable (V : (c : Dev nD) → (b : Ref sig .tc) → Buf (Elt Ideal) ((c : Thread nD τ).loc b))

theorem hz : (![0, 0] : Fin 2 → Nat) = fun _ => 0 := funext fun a => by fin_cases a <;> rfl

abbrev xmat (c : Dev nD) : Cert.Triplet.Mat := fun i k => V c main_arg0 (ix2 i k)

theorem pay_eq_nrm (x : Vec Ideal S1024x128 .f32) (X : Cert.Triplet.Mat) (r : Fin 1024) (k : Fin 128) (i : Fin 8192)
    (hx : ∀ k' : Fin 128, x (ix2 r k') = X i k') :
    k0_pay1 (F := Ideal) x (ix2 r k) = Cert.Triplet.nrm X i k := by
  rw [pay_apply x r k]
  unfold Cert.Triplet.nrm Cert.Triplet.sq
  simp only [hx]

def G0 (c : Dev nD) : S8192x128.Idx → Elt Ideal .bf16 :=
  fun j => Cert.Triplet.nrm (xmat V c) ⟨(j 0).val, idx2_lt0 j⟩ ⟨(j 1).val, idx2_lt1 j⟩

theorem G0_apply (c : Dev nD) (i : Fin 8192) (k : Fin 128) : G0 V c (ix2 i k) = Cert.Triplet.nrm (xmat V c) i k := rfl

theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

theorem iblk0_apply (c : Dev nD) (t : Fin cfg0.N) (r : Fin 1024) (k : Fin 128) (i : Fin 8192) (hi : i.val = t.val * 1024 + r.val) :
    (iblk0 V c 0 t : Vec Ideal S1024x128 .f32) (ix2 r k) = xmat V c i k := by
  obtain ⟨e0, e1, -, -⟩ := idx_facts0 t
  unfold iblk0
  rw [View.read_apply]
  show V c main_arg0 _ = V c main_arg0 _
  congr 1
  funext a
  apply Fin.ext
  match a with
  | ⟨0, _⟩ => show win0_0.index t (0 : Fin 2) * 1024 + 1 * r.val = i.val; rw [e0, hi]; omega
  | ⟨1, _⟩ => show win0_0.index t (1 : Fin 2) * 128 + 1 * k.val = k.val; rw [e1]; omega

theorem flushed0_eq (c : Dev nD) (t : Fin cfg0.N) :
    (dat0 V c).flushed 1 t = ((cfg0.win 1).blk t).view.read (Elt Ideal) (G0 V c) := by
  show (cfg0.win 1).cut (grid0.coords t) ((dat0 V c).after 1 t) = _
  rw [after0_1]
  unfold out0_1
  rw [View.canon_unit_zero hz]
  simp only [View.ld_unit_zero (S := S1024x128) hz]
  obtain ⟨-, -, e2, e3⟩ := idx_facts0 t
  have hN : cfg0.N = 8 := N_0
  have ht : t.val < 8 := hN ▸ t.isLt
  funext j
  obtain ⟨r, k, rfl⟩ : ∃ (r : Fin 1024) (k : Fin 128), j = ix2 r k := ⟨j 0, j 1, eq_ix2 j⟩
  have hemb : ((cfg0.win 1).blk t).view.emb (ix2 r k) = (ix2 (⟨t.val * 1024 + r.val, by have := r.isLt; omega⟩ : Fin 8192) k : S8192x128.Idx) := by
    funext a
    apply Fin.ext
    match a with
    | ⟨0, _⟩ => show win0_1.index t (0 : Fin 2) * 1024 + 1 * r.val = t.val * 1024 + r.val; rw [e2]; omega
    | ⟨1, _⟩ => show win0_1.index t (1 : Fin 2) * 128 + 1 * k.val = k.val; rw [e3]; omega
  show k0_pay1 (F := Ideal) (iblk0 V c 0 t) (ix2 r k) = G0 V c (((cfg0.win 1).blk t).view.emb (ix2 r k))
  rw [hemb, G0_apply]
  exact pay_eq_nrm (iblk0 V c 0 t) (xmat V c) r k _ (fun k' => iblk0_apply V c t r k' _ rfl)

theorem mem_blk0 (t : Fin cfg0.N) (i : S8192x128.Idx) :
    i ∈ ((cfg0.win 1).blk t).view.set ↔ ∀ a : Fin 2, win0_1.index t a * S1024x128.size a ≤ (i a).val ∧ (i a).val < win0_1.index t a * S1024x128.size a + S1024x128.size a := by
  show i ∈ ((View.whole main_v0).slice (win0_1.rect t)).set ↔ _
  rw [View.set_slice_whole, Rect.mem_set_unit]
  exact Iff.rfl

theorem cover0 (i : S8192x128.Idx) : ∃ t : Fin cfg0.N, (cfg0.win 1).flush t = true ∧ i ∈ ((cfg0.win 1).blk t).view.set := by
  have hi0 : (i 0).val < 8192 := (i 0).isLt
  have hi1 : (i 1).val < 128 := (i 1).isLt
  have hN : cfg0.N = 8 := N_0
  let t : Fin cfg0.N := ⟨(i 0).val / 1024, by rw [hN]; omega⟩
  obtain ⟨-, -, e2, e3⟩ := idx_facts0 t
  have e2' : win0_1.index t (0 : Fin 2) = (i 0).val / 1024 := e2
  refine ⟨t, flush0_1 t, ?_⟩
  rw [mem_blk0]
  intro a
  match a with
  | ⟨0, _⟩ => show win0_1.index t (0 : Fin 2) * 1024 ≤ (i 0).val ∧ (i 0).val < win0_1.index t (0 : Fin 2) * 1024 + 1024; omega
  | ⟨1, _⟩ => show win0_1.index t (1 : Fin 2) * 128 ≤ (i 1).val ∧ (i 1).val < win0_1.index t (1 : Fin 2) * 128 + 128; omega

-- The blocks cover the array, so the whole array holds the normalised rows.
theorem final0 (c : Dev nD) : (dat0 V c).arrAt 1 cfg0.N = G0 V c :=
  (dat0 V c).arrAt_eq_of_cover 1 (G0 V c) (fun t _ => flushed0_eq V c t) cover0

end Cert.KernelIdeal.Val.Norm

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx

theorem norm_final (V : (c : Dev nD) → (b : Ref sig .tc) → Buf (Elt Ideal) ((c : Thread nD τ).loc b)) (c : Dev nD) (i : Fin 8192) (k : Fin 128) :
    (dat0 (F := Ideal) V c).arrAt 1 cfg0.N (ix2 i k) = Cert.Triplet.nrm (fun i k => V c main_arg0 (ix2 i k)) i k := by
  rw [Norm.final0 V c]
  rfl

end Cert.KernelIdeal.Val

end
-- ==== Proof.Val.TripPay.lean ====
import proofs.«429060_j8641474200296_2_alg».proof.Proof.Gen.KernelIdeal.Skeleton
import proofs.«429060_j8641474200296_2_alg».proof.Proof.Spec
import Idealize.ShloMosaic.PureOps.Ideal.Laws
import Idealize.ShloMosaic.Lib.Affine
import Idealize.ShloMosaic.Lib.ValueIdx
import Idealize.ShloMosaic.Lib.ValueLayout
import Idealize.ShloMosaic.Lib.Pipeline.Value

noncomputable section

open scoped BigOperators

namespace Cert.KernelIdeal.Val

open Cert.KernelIdeal Cert.KernelIdeal.Gen
open Idealize.ShloMosaic Idealize.ShloMosaic.ValueIdx
open Cert.Triplet

-- Entry (p, q) of the similarity tile is the inner product of row p of the first operand with row q of the second.
theorem pay6_apply (a b : Vec Ideal S1024x128 .bf16) (p q : Fin 1024) :
    k1_pay6 (F := Ideal) a b (ix2 p q) = ∑ k : Fin 128, a (ix2 p k) * b (ix2 q k) := by
  unfold k1_pay6
  rw [shapeCast_self, shapeCast_self]
  simp only [matmul]
  rw [Ideal.matmul_constant_zero_apply, ← Equiv.sum_comp (ValueIdx.contrEquiv1 dot_S1024x128_S1024x128_S1024x1024_1_1_0_0_n_n 128 rfl rfl).symm]
  refine Finset.sum_congr rfl fun k _ => ?_
  have hk := ValueIdx.contrEquiv1_symm_val dot_S1024x128_S1024x128_S1024x1024_1_1_0_0_n_n 128 rfl rfl k
  exact congrArg₂ (· * ·)
    (congrArg a (funext fun d => Fin.ext (by
      match d with
      | ⟨0, _⟩ => rfl
      | ⟨1, _⟩ => exact (DotDims.lhsIdx_val_of_single _ rfl _ _).trans hk)))
    (congrArg b (funext fun d => Fin.ext (by
      match d with
      | ⟨0, _⟩ => rfl
      | ⟨1, _⟩ => exact (DotDims.rhsIdx_val_of_single _ rfl _ _).trans hk)))

-- A select on a bit that a proposition decides is the `if` on the proposition.
theorem select_of_iff {α : Type} {c : BitVec 1} {P : Prop} [Decidable P] (h : c = 1#1 ↔ P) (a b : α) :
    Scalar.select c a b = if P then a else b := if_congr h rfl rfl

theorem bit_and_not (b1 b2 : BitVec 1) : IntOp.andi b1 (IntOp.xori b2 1#1) = 1#1 ↔ b1 = 1#1 ∧ ¬b2 = 1#1 := by
  revert b1 b2; decide

theorem mask_eq_one_iff {w w' : ℕ} (x y : BitVec w) (u v : BitVec w') :
    IntOp.andi (IntOp.cmpi .eq x y) (IntOp.xori (IntOp.cmpi .eq u v) 1#1) = 1#1 ↔ x = y ∧ u ≠ v :=
  (bit_and_not _ _).trans (and_congr IntOp.cmpi_eq (not_congr IntOp.cmpi_eq))

-- Indices below 8192 do not wrap as 32-bit words, so the words are equal exactly when the numbers are.
theorem idxWord_eq_iff (I J p q : ℕ) (hI : I < 8) (hJ : J < 8) (hp : p < 1024) (hq : q < 1024) :
    IntOp.addi (Scalar.muli (BitVec.ofNat 32 I) 1024#32) (BitVec.ofNat 32 p)
      = IntOp.addi (Scalar.muli (BitVec.ofNat 32 J) 1024#32) (BitVec.ofNat 32 q) ↔ I * 1024 + p = J * 1024 + q := by
  unfold IntOp.addi Scalar.muli IntOp.muli
  constructor
  · intro h
    have h' := congrArg BitVec.toNat h
    simp only [BitVec.toNat_add, BitVec.toNat_mul, BitVec.toNat_ofNat] at h'
    omega
  · intro h
    apply BitVec.eq_of_toNat_eq
    simp only [BitVec.toNat_add, BitVec.toNat_mul, BitVec.toNat_ofNat]
    omega

theorem colCast_apply {α : Type} (v : S1024.Idx → α) (h : S1024.ShapeCasts S1024x1) (p : Fin 1024) :
    shapeCast S1024x1 v h (ix2 p 0) = v (ix1 p) :=
  shapeCast_apply v h (ix2 p 0) (ix1 p) (by
    rw [Shape.rowMajor_val_one, Shape.rowMajor_val_two]
    show p.val = p.val * 1 + 0
    omega)

theorem rowBcast_apply {α : Type} (r : S1024x1.Idx → α) (h : S1024x1.Broadcasts S1024x1024) (p q : Fin 1024) :
    broadcastTo S1024x1024 r h (ix2 p q) = r (ix2 p 0) :=
  broadcastTo_apply r h (ix2 p q) (ix2 p 0) (fun d => match d with
    | ⟨0, _⟩ => by show p.val = if (1024 : ℕ) = 1 then 0 else p.val; rw [if_neg (by decide)]
    | ⟨1, _⟩ => by show (0 : ℕ) = if (1 : ℕ) = 1 then 0 else q.val; rw [if_pos rfl])

theorem pay7_apply (r : Vec Ideal S1024x1 .i32) (c : Vec Ideal S1x1024 .i32) (p q : Fin 1024) :
    k1_pay7 (F := Ideal) r c (ix2 p q) = IntOp.cmpi .eq (r (ix2 p 0)) (c (ix2 0 q)) := by
  unfold k1_pay7
  rw [shapeCast_self, shapeCast_self]
  show IntOp.cmpi .eq (broadcastTo S1024x1024 r _ (ix2 p q)) (broadcastTo S1024x1024 c _ (ix2 p q)) = _
  rw [rowBcast_apply, broadcastTo_1b_ab_apply]

-- The masked similarities: the fill at same-label entries, the inner product elsewhere.
theorem pay8_apply (a b : Vec Ideal S1024x128 .bf16) (r : Vec Ideal S1024x1 .i32) (c : Vec Ideal S1x1024 .i32) (p q : Fin 1024) :
    k1_pay8 (F := Ideal) a b r c (ix2 p q)
      = if r (ix2 p 0) = c (ix2 0 q) then negFill else ∑ k : Fin 128, a (ix2 p k) * b (ix2 q k) := by
  unfold k1_pay8
  show Scalar.select (k1_pay7 (F := Ideal) r c (ix2 p q)) negFill (k1_pay6 (F := Ideal) a b (ix2 p q)) = _
  rw [pay7_apply, pay6_apply, select_of_iff IntOp.cmpi_eq]

theorem rowSum_apply (v : FVec Ideal S1024x1024 .f32) (hφ : FKind.Formats .f32)
    (hacc : (0x00000000#32 : BitVec 32) = 0x00000000#32) (p : Fin 1024) :
    multiReduction .add [1] S1024 v 0x00000000#32 reduces_S1024x1024_S1024 hφ hacc (ix1 p) = ∑ q : Fin 1024, v (ix2 p q) := by
  refine (Ideal.multiReduction_add_single v 0x00000000#32 reduces_S1024x1024_S1024 hφ hacc (ix1 p)).trans ?_
  exact Finset.sum_congr rfl fun q _ => congrArg v ((eq_ix2 _).trans rfl)

theorem rowMax_apply (v : FVec Ideal S1024x1024 .f32) (hφ : FKind.Formats .f32)
    (hacc : (0xFF800000#32 : BitVec 32) = 0xFF800000#32) (p : Fin 1024) :
    multiReduction .maximumf [1] S1024 v 0xFF800000#32 reduces_S1024x1024_S1024 hφ hacc (ix1 p)
      = (Finset.univ : Finset (Fin 1024)).fold max (Ideal.ofBits .f32 0xFF800000#32) (fun q => v (ix2 p q)) := by
  refine (Ideal.multiReduction_maximumf_single v 0xFF800000#32 reduces_S1024x1024_S1024 hφ hacc (ix1 p)).trans ?_
  exact congrArg (fun g => (Finset.univ : Finset (Fin 1024)).fold max (Ideal.ofBits .f32 0xFF800000#32) g)
    (funext fun q => congrArg v ((eq_ix2 _).trans rfl))

-- A fold of max from a start value is the start value joined with the supremum.
theorem fold_max_eq_sup' {ι : Type} [Fintype ι] (hne : (Finset.univ : Finset ι).Nonempty) (b : EReal) (g : ι → EReal) :
    (Finset.univ : Finset ι).fold max b g = max b (Finset.univ.sup' hne g) := by
  refine eq_of_forall_ge_iff fun c => ?_
  rw [Finset.fold_max_le, max_le_iff, Finset.sup'_le_iff]

-- The carried sum plus the row's sum of inner products at same-label entries off the global diagonal.
theorem pay9_apply (i : grid1.Coords) (a b : Vec Ideal S1024x128 .bf16) (r : Vec Ideal S1024x1 .i32) (c : Vec Ideal S1x1024 .i32)
    (s : Vec Ideal S1024x1 .f32) (p : Fin 1024) :
    k1_pay9 (F := Ideal) i a b r c s (ix2 p 0)
      = s (ix2 p 0) + ∑ q : Fin 1024,
          if r (ix2 p 0) = c (ix2 0 q) ∧ (i 0).val * 1024 + p.val ≠ (i 1).val * 1024 + q.val
          then ∑ k : Fin 128, a (ix2 p k) * b (ix2 q k) else zero := by
  unfold k1_pay9
  dsimp only
  show s (ix2 p 0) + shapeCast S1024x1 (multiReduction (F := Ideal) (φ := .f32) .add [1] S1024 _ 0x00000000#32 reduces_S1024x1024_S1024 _ _) shapeCasts_S1024_S1024x1 (ix2 p 0) = _
  rw [colCast_apply, rowSum_apply]
  refine congrArg (fun z => s (ix2 p 0) + z) (Finset.sum_congr rfl fun q _ => ?_)
  show Scalar.select (IntOp.andi (k1_pay7 (F := Ideal) r c (ix2 p q))
        (IntOp.xori (IntOp.cmpi .eq
            (IntOp.addi _ (iota .tc S1024x1024 32 [0] _ (ix2 p q))) (IntOp.addi _ (iota .tc S1024x1024 32 [1] _ (ix2 p q)))) 1#1))
      (k1_pay6 (F := Ideal) a b (ix2 p q)) zero = _
  rw [pay7_apply, pay6_apply, iota_single_apply, iota_single_apply]
  show Scalar.select (IntOp.andi _ (IntOp.xori (IntOp.cmpi .eq (IntOp.addi _ (BitVec.ofNat 32 p.val)) (IntOp.addi _ (BitVec.ofNat 32 q.val))) 1#1)) _ _ = _
  exact select_of_iff ((mask_eq_one_iff _ _ _ _).trans (and_congr Iff.rfl (not_congr
    (idxWord_eq_iff _ _ _ _ (i 0).isLt (i 1).isLt p.isLt q.isLt)))) _ _

theorem pay1_eq (v : FVec Ideal S1024x1 .f32) : k1_pay1 (F := Ideal) v = v := by
  unfold k1_pay1
  exact shapeCast_self v _

-- The carried maximum joined with the row's maximum.
theorem pay2_apply (v : FVec Ideal S1024x1024 .f32) (m : Vec Ideal S1024x1 .f32) (p : Fin 1024) :
    k1_pay2 (F := Ideal) v m (ix2 p 0)
      = max (m (ix2 p 0)) ((Finset.univ : Finset (Fin 1024)).fold max (Ideal.ofBits .f32 0xFF800000#32) (fun q => v (ix2 p q))) := by
  unfold k1_pay2
  dsimp only
  refine (congrFun (shapeCast_self _ shapeCasts_S1024x1_S1024x1) (ix2 p 0)).trans ?_
  refine (maximumf_apply _ _ (ix2 p 0)).trans ?_
  refine congrArg (fun z => max (m (ix2 p 0)) z) ?_
  refine (colCast_apply _ shapeCasts_S1024_S1024x1 p).trans ?_
  exact rowMax_apply v _ _ p

theorem pay4_apply (p : Fin 1024) : k1_pay4 (F := Ideal) (ix2 p 0) = zero := by
  unfold k1_pay4
  refine (congrFun (shapeCast_self _ shapeCasts_S1024x1_S1024x1) (ix2 p 0)).trans ?_
  rfl

theorem pay5_apply (p : Fin 1024) : k1_pay5 (F := Ideal) (ix2 p 0) = negFill := by
  unfold k1_pay5
  refine (congrFun (shapeCast_self _ shapeCasts_S1024x1_S1024x1) (ix2 p 0)).trans ?_
  rfl

theorem cmpfOgt_eq_one_iff (x y : EReal) : Ideal.cmp .ogt x y = 1#1 ↔ y < x := by
  show BitVec.ofBool (decide (y < x)) = 1#1 ↔ y < x
  by_cases h : y < x <;> simp [h]

-- The two guarded terms of the last step are the row loss's.
theorem lossRow (cnt ps ng : EReal) :
    max (margin + Scalar.select (Ideal.cmp .ogt ng halfFill) ng zero
          - Scalar.select (Ideal.cmp .ogt cnt zero) (Ideal.div ps (max cnt one)) zero) zero = lossOf ps ng cnt := by
  rw [select_of_iff (cmpfOgt_eq_one_iff _ _), select_of_iff (cmpfOgt_eq_one_iff _ _)]
  rfl

theorem pay3_apply (cnt ps ng : Vec Ideal S1024x1 .f32) (p : Fin 1024) :
    k1_pay3 (F := Ideal) cnt ps ng (ix2 p 0)
      = lossOf (ps (ix2 p 0)) (ng (ix2 p 0)) (cnt (ix2 p 0)) := by
  unfold k1_pay3
  have e : shapeCast S1024x1 cnt shapeCasts_S1024x1_S1024x1 = cnt := shapeCast_self _ _
  rw [e]
  exact lossRow _ _ _

theorem col_eq_iff (I J : Fin 8) (p q : Fin 1024) : col I p = col J q ↔ I.val * 1024 + p.val = J.val * 1024 + q.val :=
  ⟨fun h => congrArg Fin.val h, fun h => Fin.ext h⟩

theorem zero_eq_zero : (zero : EReal) = 0 := by unfold zero; exact Ideal.ofBits_zero_f32

theorem pay8_negRow (f : Mat) (l : Lab) (I J : Fin 8) (a b : Vec Ideal S1024x128 .bf16) (r : Vec Ideal S1024x1 .i32)
    (c : Vec Ideal S1x1024 .i32) (ha : ∀ p k, a (ix2 p k) = f (col I p) k) (hb : ∀ q k, b (ix2 q k) = f (col J q) k)
    (hr : ∀ p, r (ix2 p 0) = l (col I p)) (hc : ∀ q, c (ix2 0 q) = l (col J q)) (p q : Fin 1024) :
    k1_pay8 (F := Ideal) a b r c (ix2 p q) = negRow f l (col I p) (col J q) := by
  rw [pay8_apply, hr p, hc q]
  unfold negRow sim
  exact if_congr Iff.rfl rfl (Finset.sum_congr rfl fun k _ => by rw [ha, hb])

theorem pay9_posTile (i : grid1.Coords) (I J : Fin 8) (hI : (i 0).val = I.val) (hJ : (i 1).val = J.val) (f : Mat) (l : Lab)
    (a b : Vec Ideal S1024x128 .bf16) (r : Vec Ideal S1024x1 .i32) (c : Vec Ideal S1x1024 .i32) (s : Vec Ideal S1024x1 .f32)
    (ha : ∀ p k, a (ix2 p k) = f (col I p) k) (hb : ∀ q k, b (ix2 q k) = f (col J q) k)
    (hr : ∀ p, r (ix2 p 0) = l (col I p)) (hc : ∀ q, c (ix2 0 q) = l (col J q)) (p : Fin 1024) :
    k1_pay9 (F := Ideal) i a b r c s (ix2 p 0) = s (ix2 p 0) + posTile f l (col I p) J := by
  rw [pay9_apply]
  unfold posTile
  refine congrArg (fun z => s (ix2 p 0) + z) ?_
  rw [zero_eq_zero, zero_add]
  refine Finset.sum_congr rfl fun q _ => ?_
  rw [hr p, hc q, hI, hJ]
  unfold sim isPos
  refine if_congr (and_congr Iff.rfl (not_congr (col_eq_iff I J p q).symm)) (Finset.sum_congr rfl fun k _ => by rw [ha, hb]) rfl

theorem pay2_negTile (f : Mat) (l : Lab) (I J : Fin 8) (v : FVec Ideal S1024x1024 .f32)
    (hv : ∀ p q, v (ix2 p q) = negRow f l (col I p) (col J q)) (m : Vec Ideal S1024x1 .f32) (p : Fin 1024) :
    k1_pay2 (F := Ideal) v m (ix2 p 0) = max (m (ix2 p 0)) (negTile f l (col I p) J) := by
  rw [pay2_apply, fold_max_eq_sup' ⟨0, Finset.mem_univ _⟩]
  unfold negTile
  refine congrArg (fun z => max (m (ix2 p 0)) (max (Ideal.ofBits .f32 0xFF800000#32) z)) ?_
  exact congrArg (fun g => Finset.univ.sup' ⟨0, Finset.mem_univ _⟩ g) (funext fun q => hv p q)

end Cert.KernelIdeal.Val

end
-- ==== Proof.Val.TripValue.lean ====
import proofs.«429060_j8641474200296_2_alg».proof.Proof.KI.TripDat
import proofs.«429060_j8641474200296_2_alg».proof.Proof.Spec
import proofs.«429060_j8641474200296_2_alg».proof.Proof.Val.TripPay
import Idealize.ShloMosaic.Lib.Pipeline.Value
import Idealize.ShloMosaic.Lib.ValueIdx
import Idealize.ShloMosaic.Lib.Tactic

set_option maxRecDepth 16384

noncomputable section

open scoped BigOperators

namespace Cert.KernelIdeal.Val

open Cert.KernelIdeal Cert.KernelIdeal.Gen Cert.KernelIdeal.Hand
open Idealize.ShloMosaic Idealize.ShloMosaic.TcCoe Idealize.SL.Sem Idealize.ShloMosaic.Tactic
open Idealize.ShloMosaic.Pipeline (Dat)
open Idealize.ShloMosaic.ValueIdx
open Cert.Triplet

variable {F : FTy → Type} [FloatOps F]

theorem tripHz : (![0, 0] : Fin 2 → Nat) = fun _ => 0 := funext fun a => by fin_cases a <;> rfl

abbrev colRows (i : grid1.Coords) (x1 : Vec F S8192x128 .bf16) : Vec F S1024x128 .bf16 :=
  View.ld x1 (Rect.unit (s := S8192x128) (k1_off1 i) S1024x128.size (k1_off1_inb i))

abbrev colLabs (i : grid1.Coords) (x3 : Vec F S1x8192 .i32) : Vec F S1x1024 .i32 :=
  View.ld x3 (Rect.unit (s := S1x8192) (k1_off2 i) S1x1024.size (k1_off2_inb i))

theorem readWhole {S : Shape} {e : EltTy} (m : Memref sig .tc .vmem S e) (h : m.IsWhole) (X : S.Idx → Elt F e)
    {off : Fin S.rank → Nat} (hoff : off = fun _ => 0) (inb : ∀ a, off a + S.size a ≤ S.size a) :
    View.readAt (Elt F) m.view (Rect.unit off S.size inb).toLoadRect (h.unread X) = X := by
  rw [View.readAt_eq_ld, h.read_unread, View.ld_unit_zero hoff]

theorem readRect {S : Shape} {e : EltTy} (m : Memref sig .tc .vmem S e) (h : m.IsWhole) (X : S.Idx → Elt F e) (r : Rect S) :
    View.readAt (Elt F) m.view r.toLoadRect (h.unread X) = View.ld X r := by
  rw [View.readAt_eq_ld, h.read_unread]

section Pieces
variable (c : Dev nD) (i : grid1.Coords) (o : Ops) (x0 : Vec F S1024x128 .bf16) (x1 : Vec F S8192x128 .bf16)
  (x2 : Vec F S1024x1 .i32) (x3 : Vec F S1x8192 .i32) (x4 : Vec F S1024x1 .f32) (xs0 xs1 : Vec F S1024x1 .f32)

/-- What each case's run leaves in each buffer, as payloads of the blocks: the step's sum over the carried sum (the reset
    value in case A), its maximum over the carried maximum, and in case C the loss of the finished values. -/
theorem soutA0_eq (hc0 : cond1_0 i) (hc1 : ¬cond1_1 i) :
    rd VS1_0 (kernelRun1_A c i o hc0 hc1 x0 x1 x2 x3 x4).2.1 = k1_pay1 (k1_pay9 i x0 (colRows i x1) x2 (colLabs i x3) k1_pay4) := by
  unfold rd
  rw [View.read_writes_eq_canon _ _ _ (coverA c i o x0 x1 x2 x3 x4 hc0 hc1).1]
  unfold kernelRun1_A
  dsimp only
  sl_unfold_words
  rw [View.canon_cons_unit_zero (S := S1024x1) tripHz, View.readCov_unit_zero (S := S1024x1) _ tripHz]
  rw [readWhole o.a2 o.h2 x0 tripHz, readRect o.a3 o.h3 x1, readWhole o.a4 o.h4 x2 tripHz, readRect o.a5 o.h5 x3]
  try rfl

theorem soutA1_eq (hc0 : cond1_0 i) (hc1 : ¬cond1_1 i) :
    rd VS1_1 (kernelRun1_A c i o hc0 hc1 x0 x1 x2 x3 x4).2.2.1 = k1_pay2 (k1_pay8 x0 (colRows i x1) x2 (colLabs i x3)) k1_pay5 := by
  unfold rd
  rw [View.read_writes_eq_canon _ _ _ (coverA c i o x0 x1 x2 x3 x4 hc0 hc1).2]
  unfold kernelRun1_A
  dsimp only
  sl_unfold_words
  rw [View.canon_cons_unit_zero (S := S1024x1) tripHz, View.readCov_unit_zero (S := S1024x1) _ tripHz]
  rw [readWhole o.a2 o.h2 x0 tripHz, readRect o.a3 o.h3 x1, readWhole o.a4 o.h4 x2 tripHz, readRect o.a5 o.h5 x3]
  try rfl

theorem soutB0_eq (hc0 : ¬cond1_0 i) (hc1 : ¬cond1_1 i) :
    rd VS1_0 (kernelRun1_B c i o hc0 hc1 x0 x1 x2 x3 x4 xs0 xs1).2.1 = k1_pay1 (k1_pay9 i x0 (colRows i x1) x2 (colLabs i x3) xs0) := by
  unfold rd
  rw [View.read_writes_eq_canon _ _ _ (coverB c i o x0 x1 x2 x3 x4 xs0 xs1 hc0 hc1).1]
  unfold kernelRun1_B
  dsimp only
  sl_unfold_words
  rw [View.canon_unit_zero tripHz]
  rw [readWhole o.a2 o.h2 x0 tripHz, readRect o.a3 o.h3 x1, readWhole o.a4 o.h4 x2 tripHz, readRect o.a5 o.h5 x3, readWhole o.a8 o.h8 xs0 tripHz]
  try rfl

theorem soutB1_eq (hc0 : ¬cond1_0 i) (hc1 : ¬cond1_1 i) :
    rd VS1_1 (kernelRun1_B c i o hc0 hc1 x0 x1 x2 x3 x4 xs0 xs1).2.2.1 = k1_pay2 (k1_pay8 x0 (colRows i x1) x2 (colLabs i x3)) xs1 := by
  unfold rd
  rw [View.read_writes_eq_canon _ _ _ (coverB c i o x0 x1 x2 x3 x4 xs0 xs1 hc0 hc1).2]
  unfold kernelRun1_B
  dsimp only
  sl_unfold_words
  rw [View.canon_unit_zero tripHz]
  rw [readWhole o.a2 o.h2 x0 tripHz, readRect o.a3 o.h3 x1, readWhole o.a4 o.h4 x2 tripHz, readRect o.a5 o.h5 x3, readWhole o.a9 o.h9 xs1 tripHz]
  try rfl

theorem soutC0_eq (hc0 : ¬cond1_0 i) (hc1 : cond1_1 i) :
    rd VS1_0 (kernelRun1_C c i o hc0 hc1 x0 x1 x2 x3 x4 xs0 xs1).2.1 = k1_pay1 (k1_pay9 i x0 (colRows i x1) x2 (colLabs i x3) xs0) := by
  unfold rd
  rw [View.read_writes_eq_canon _ _ _ (coverC c i o x0 x1 x2 x3 x4 xs0 xs1 hc0 hc1).2.1]
  unfold kernelRun1_C
  dsimp only
  sl_unfold_words
  rw [View.canon_unit_zero tripHz]
  rw [readWhole o.a2 o.h2 x0 tripHz, readRect o.a3 o.h3 x1, readWhole o.a4 o.h4 x2 tripHz, readRect o.a5 o.h5 x3, readWhole o.a8 o.h8 xs0 tripHz]
  try rfl

theorem soutC1_eq (hc0 : ¬cond1_0 i) (hc1 : cond1_1 i) :
    rd VS1_1 (kernelRun1_C c i o hc0 hc1 x0 x1 x2 x3 x4 xs0 xs1).2.2.1 = k1_pay2 (k1_pay8 x0 (colRows i x1) x2 (colLabs i x3)) xs1 := by
  unfold rd
  rw [View.read_writes_eq_canon _ _ _ (coverC c i o x0 x1 x2 x3 x4 xs0 xs1 hc0 hc1).2.2]
  unfold kernelRun1_C
  dsimp only
  sl_unfold_words
  rw [View.canon_unit_zero tripHz]
  rw [readWhole o.a2 o.h2 x0 tripHz, readRect o.a3 o.h3 x1, readWhole o.a4 o.h4 x2 tripHz, readRect o.a5 o.h5 x3, readWhole o.a9 o.h9 xs1 tripHz]
  try rfl

theorem outC5_eq (hc0 : ¬cond1_0 i) (hc1 : cond1_1 i) :
    rd VO1_5 (kernelRun1_C c i o hc0 hc1 x0 x1 x2 x3 x4 xs0 xs1).1 = k1_pay3 x4 (k1_pay1 (k1_pay9 i x0 (colRows i x1) x2 (colLabs i x3) xs0)) (k1_pay2 (k1_pay8 x0 (colRows i x1) x2 (colLabs i x3)) xs1) := by
  unfold rd
  rw [View.read_writes_eq_canon _ _ _ (coverC c i o x0 x1 x2 x3 x4 xs0 xs1 hc0 hc1).1]
  unfold kernelRun1_C
  dsimp only
  sl_unfold_words
  rw [View.canon_unit_zero tripHz, View.readCov_unit_zero (S := S1024x1) _ tripHz, View.readCov_unit_zero (S := S1024x1) _ tripHz]
  rw [readWhole o.a6 o.h6 x4 tripHz, readWhole o.a2 o.h2 x0 tripHz, readRect o.a3 o.h3 x1, readWhole o.a4 o.h4 x2 tripHz, readRect o.a5 o.h5 x3, readWhole o.a8 o.h8 xs0 tripHz, readWhole o.a9 o.h9 xs1 tripHz]
  try rfl

end Pieces

theorem colRows_apply (i : grid1.Coords) (J : Fin 8) (hJ : (i 1).val = J.val) (x1 : Vec F S8192x128 .bf16) (q : Fin 1024) (k : Fin 128) :
    colRows i x1 (ix2 q k) = x1 (ix2 (col J q) k) := by
  show x1 _ = x1 _
  refine congrArg x1 (funext fun a => Fin.ext ?_)
  match a with
  | ⟨0, _⟩ =>
    show k1_off1 i (0 : Fin 2) + 1 * q.val = J.val * 1024 + q.val
    rw [k1_off1_eq i]
    show 1024 * (i 1).val + 1 * q.val = J.val * 1024 + q.val
    rw [hJ]; omega
  | ⟨1, _⟩ =>
    show k1_off1 i (1 : Fin 2) + 1 * k.val = k.val
    rw [k1_off1_eq i]
    show 0 + 1 * k.val = k.val
    omega

theorem colLabs_apply (i : grid1.Coords) (J : Fin 8) (hJ : (i 1).val = J.val) (x3 : Vec F S1x8192 .i32) (q : Fin 1024) :
    colLabs i x3 (ix2 (0 : Fin 1) q) = x3 (ix2 (0 : Fin 1) (col J q)) := by
  show x3 _ = x3 _
  refine congrArg x3 (funext fun a => Fin.ext ?_)
  match a with
  | ⟨0, _⟩ =>
    show k1_off2 i (0 : Fin 2) + 1 * 0 = 0
    rw [k1_off2_eq i]
    show 0 + 1 * 0 = 0
    omega
  | ⟨1, _⟩ =>
    show k1_off2 i (1 : Fin 2) + 1 * q.val = J.val * 1024 + q.val
    rw [k1_off2_eq i]
    show 1024 * (i 1).val + 1 * q.val = J.val * 1024 + q.val
    rw [hJ]; omega

theorem take_succ_finRange8 : ∀ J : Fin 8, (List.finRange 8).take (J.val + 1) = (List.finRange 8).take J.val ++ [J] := by decide

theorem posAcc_zero (f : Mat) (l : Lab) (i : Fin 8192) : posAcc f l i 0 = zero := rfl
theorem posAcc_succ (f : Mat) (l : Lab) (i : Fin 8192) (J : Fin 8) :
    posAcc f l i (J.val + 1) = posAcc f l i J.val + posTile f l i J := by
  unfold posAcc
  rw [take_succ_finRange8 J, List.foldl_append]
  rfl
theorem negAcc_zero (f : Mat) (l : Lab) (i : Fin 8192) : negAcc f l i 0 = negFill := rfl
theorem negAcc_succ (f : Mat) (l : Lab) (i : Fin 8192) (J : Fin 8) :
    negAcc f l i (J.val + 1) = max (negAcc f l i J.val) (negTile f l i J) := by
  unfold negAcc
  rw [take_succ_finRange8 J, List.foldl_append]
  rfl

theorem lossOf_congr {a a' b b' d d' : EReal} (ha : a = a') (hb : b = b') (hd : d = d') : lossOf a b d = lossOf a' b' d' := by
  rw [ha, hb, hd]

theorem stepSum (f : Mat) (l : Lab) (i : grid1.Coords) (I J : Fin 8) (hI : (i 0).val = I.val) (hJ : (i 1).val = J.val) (x0 : Vec Ideal S1024x128 .bf16) (x1 : Vec Ideal S8192x128 .bf16) (x2 : Vec Ideal S1024x1 .i32) (x3 : Vec Ideal S1x8192 .i32) (s : Vec Ideal S1024x1 .f32) (h0 : ∀ p k, x0 (ix2 p k) = f (col I p) k) (h1 : ∀ g k, x1 (ix2 g k) = f g k) (h2 : ∀ p, x2 (ix2 p (0 : Fin 1)) = l (col I p)) (h3 : ∀ g, x3 (ix2 (0 : Fin 1) g) = l g) (p : Fin 1024) :
    k1_pay1 (F := Ideal) (k1_pay9 (F := Ideal) i x0 (colRows i x1) x2 (colLabs i x3) s) (ix2 p (0 : Fin 1))
      = s (ix2 p (0 : Fin 1)) + posTile f l (col I p) J := by
  rw [pay1_eq]
  exact pay9_posTile i I J hI hJ f l x0 (colRows i x1) x2 (colLabs i x3) s h0 (fun q k => (colRows_apply i J hJ x1 q k).trans (h1 _ _)) h2 (fun q => (colLabs_apply i J hJ x3 q).trans (h3 _)) p

theorem stepMax (f : Mat) (l : Lab) (i : grid1.Coords) (I J : Fin 8) (hI : (i 0).val = I.val) (hJ : (i 1).val = J.val) (x0 : Vec Ideal S1024x128 .bf16) (x1 : Vec Ideal S8192x128 .bf16) (x2 : Vec Ideal S1024x1 .i32) (x3 : Vec Ideal S1x8192 .i32) (m : Vec Ideal S1024x1 .f32) (h0 : ∀ p k, x0 (ix2 p k) = f (col I p) k) (h1 : ∀ g k, x1 (ix2 g k) = f g k) (h2 : ∀ p, x2 (ix2 p (0 : Fin 1)) = l (col I p)) (h3 : ∀ g, x3 (ix2 (0 : Fin 1) g) = l g) (p : Fin 1024) :
    k1_pay2 (F := Ideal) (k1_pay8 (F := Ideal) x0 (colRows i x1) x2 (colLabs i x3)) m (ix2 p (0 : Fin 1))
      = max (m (ix2 p (0 : Fin 1))) (negTile f l (col I p) J) :=
  pay2_negTile f l I J (k1_pay8 (F := Ideal) x0 (colRows i x1) x2 (colLabs i x3))
    (fun p q => pay8_negRow f l I J x0 (colRows i x1) x2 (colLabs i x3) h0 (fun q k => (colRows_apply i J hJ x1 q k).trans (h1 _ _)) h2 (fun q => (colLabs_apply i J hJ x3 q).trans (h3 _)) p q) m p

theorem stepLoss (f : Mat) (l : Lab) (cnt : Fin 8192 → EReal) (i : grid1.Coords) (I J : Fin 8) (hI : (i 0).val = I.val) (hJ : (i 1).val = J.val) (x0 : Vec Ideal S1024x128 .bf16) (x1 : Vec Ideal S8192x128 .bf16) (x2 : Vec Ideal S1024x1 .i32) (x3 : Vec Ideal S1x8192 .i32) (x4 s m : Vec Ideal S1024x1 .f32) (h0 : ∀ p k, x0 (ix2 p k) = f (col I p) k) (h1 : ∀ g k, x1 (ix2 g k) = f g k) (h2 : ∀ p, x2 (ix2 p (0 : Fin 1)) = l (col I p)) (h3 : ∀ g, x3 (ix2 (0 : Fin 1) g) = l g)
    (h4 : ∀ p, x4 (ix2 p (0 : Fin 1)) = cnt (col I p)) (p : Fin 1024) (P N : EReal)
    (hs : s (ix2 p (0 : Fin 1)) = P) (hm : m (ix2 p (0 : Fin 1)) = N) :
    k1_pay3 (F := Ideal) x4 (k1_pay1 (F := Ideal) (k1_pay9 (F := Ideal) i x0 (colRows i x1) x2 (colLabs i x3) s))
        (k1_pay2 (F := Ideal) (k1_pay8 (F := Ideal) x0 (colRows i x1) x2 (colLabs i x3)) m) (ix2 p (0 : Fin 1))
      = lossOf (P + posTile f l (col I p) J) (max N (negTile f l (col I p) J)) (cnt (col I p)) := by
  rw [pay3_apply, stepSum f l i I J hI hJ x0 x1 x2 x3 s h0 h1 h2 h3 p, stepMax f l i I J hI hJ x0 x1 x2 x3 m h0 h1 h2 h3 p, h4 p, hs, hm]

theorem gridCoords : ∀ t : Fin cfg1.N, ((grid1.coords t) 0).val = t.val / 8 ∧ ((grid1.coords t) 1).val = t.val % 8 :=
  (by decide +kernel : ∀ t : Fin grid1.N, ((grid1.coords t) 0).val = t.val / 8 ∧ ((grid1.coords t) 1).val = t.val % 8)

theorem idx1_0 : ∀ t : Fin cfg1.N, win1_0.index t (0 : Fin 2) = t.val / 8 ∧ win1_0.index t (1 : Fin 2) = 0 :=
  (by decide +kernel : ∀ t : Fin grid1.N, win1_0.index t (0 : Fin 2) = t.val / 8 ∧ win1_0.index t (1 : Fin 2) = 0)
theorem idx1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
theorem idx1_2 : ∀ t : Fin cfg1.N, win1_2.index t (0 : Fin 2) = t.val / 8 ∧ win1_2.index t (1 : Fin 2) = 0 :=
  (by decide +kernel : ∀ t : Fin grid1.N, win1_2.index t (0 : Fin 2) = t.val / 8 ∧ win1_2.index t (1 : Fin 2) = 0)
theorem idx1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem idx1_4 : ∀ t : Fin cfg1.N, win1_4.index t (0 : Fin 2) = t.val / 8 ∧ win1_4.index t (1 : Fin 2) = 0 :=
  (by decide +kernel : ∀ t : Fin grid1.N, win1_4.index t (0 : Fin 2) = t.val / 8 ∧ win1_4.index t (1 : Fin 2) = 0)
theorem idx1_5 : ∀ t : Fin cfg1.N, win1_5.index t (0 : Fin 2) = t.val / 8 ∧ win1_5.index t (1 : Fin 2) = 0 :=
  (by decide +kernel : ∀ t : Fin grid1.N, win1_5.index t (0 : Fin 2) = t.val / 8 ∧ win1_5.index t (1 : Fin 2) = 0)

theorem blk0_apply (V : (c : Dev nD) → (b : Ref sig .tc) → Buf (Elt Ideal) ((c : Thread nD τ).loc b)) (c : Dev nD) (f : Mat) (l : Lab) (hf : ∀ i k, V c main_v0 (ix2 i k) = f i k) (t : Fin cfg1.N) (I : Fin 8) (hI : I.val = t.val / 8) (p : Fin 1024) (k : Fin 128) :
    (iblk1 V c 0 t : Vec Ideal S1024x128 .bf16) (ix2 p k) = f (col I p) k := by
  obtain ⟨e0, e1⟩ := idx1_0 t
  refine Eq.trans ?_ (hf (col I p) k)
  unfold iblk1
  rw [View.read_apply]
  show V c main_v0 _ = V c main_v0 _
  congr 1
  funext a
  apply Fin.ext
  match a with
  | ⟨0, _⟩ => show win1_0.index t (0 : Fin 2) * 1024 + 1 * p.val = I.val * 1024 + p.val; rw [e0, hI]; omega
  | ⟨1, _⟩ => show win1_0.index t (1 : Fin 2) * 128 + 1 * k.val = k.val; rw [e1]; omega

theorem blk1_apply (V : (c : Dev nD) → (b : Ref sig .tc) → Buf (Elt Ideal) ((c : Thread nD τ).loc b)) (c : Dev nD) (f : Mat) (l : Lab) (hf : ∀ i k, V c main_v0 (ix2 i k) = f i k) (t : Fin cfg1.N) (g : Fin 8192) (k : Fin 128) :
    (iblk1 V c 1 t : Vec Ideal S8192x128 .bf16) (ix2 g k) = f g k := by
  obtain ⟨e0, e1⟩ := idx1_1 t
  refine Eq.trans ?_ (hf g k)
  unfold iblk1
  rw [View.read_apply]
  show V c main_v0 _ = V c main_v0 _
  congr 1
  funext a
  apply Fin.ext
  match a with
  | ⟨0, _⟩ => show win1_1.index t (0 : Fin 2) * 8192 + 1 * g.val = g.val; rw [e0]; omega
  | ⟨1, _⟩ => show win1_1.index t (1 : Fin 2) * 128 + 1 * k.val = k.val; rw [e1]; omega

theorem blk2_apply (V : (c : Dev nD) → (b : Ref sig .tc) → Buf (Elt Ideal) ((c : Thread nD τ).loc b)) (c : Dev nD) (f : Mat) (l : Lab) (hr : ∀ i, V c main_v21 (ix2 i 0) = l i) (t : Fin cfg1.N) (I : Fin 8) (hI : I.val = t.val / 8) (p : Fin 1024) :
    (iblk1 V c 2 t : Vec Ideal S1024x1 .i32) (ix2 p (0 : Fin 1)) = l (col I p) := by
  obtain ⟨e0, e1⟩ := idx1_2 t
  refine Eq.trans ?_ (hr (col I p))
  unfold iblk1
  rw [View.read_apply]
  show V c main_v21 _ = V c main_v21 _
  congr 1
  funext a
  apply Fin.ext
  match a with
  | ⟨0, _⟩ => show win1_2.index t (0 : Fin 2) * 1024 + 1 * p.val = I.val * 1024 + p.val; rw [e0, hI]; omega
  | ⟨1, _⟩ => show win1_2.index t (1 : Fin 2) * 1 + 1 * 0 = 0; rw [e1]

theorem blk3_apply (V : (c : Dev nD) → (b : Ref sig .tc) → Buf (Elt Ideal) ((c : Thread nD τ).loc b)) (c : Dev nD) (f : Mat) (l : Lab) (hc : ∀ j, V c main_v22 (ix2 0 j) = l j) (t : Fin cfg1.N) (g : Fin 8192) :
    (iblk1 V c 3 t : Vec Ideal S1x8192 .i32) (ix2 (0 : Fin 1) g) = l g := by
  obtain ⟨e0, e1⟩ := idx1_3 t
  refine Eq.trans ?_ (hc g)
  unfold iblk1
  rw [View.read_apply]
  show V c main_v22 _ = V c main_v22 _
  congr 1
  funext a
  apply Fin.ext
  match a with
  | ⟨0, _⟩ => show win1_3.index t (0 : Fin 2) * 1 + 1 * 0 = 0; rw [e0]
  | ⟨1, _⟩ => show win1_3.index t (1 : Fin 2) * 8192 + 1 * g.val = g.val; rw [e1]; omega

theorem blk4_apply (V : (c : Dev nD) → (b : Ref sig .tc) → Buf (Elt Ideal) ((c : Thread nD τ).loc b)) (c : Dev nD) (cnt : Fin 8192 → EReal)
    (hcnt : ∀ i, V c main_v20 (ix2 i 0) = cnt i) (t : Fin cfg1.N) (I : Fin 8) (hI : I.val = t.val / 8) (p : Fin 1024) :
    (iblk1 V c 4 t : Vec Ideal S1024x1 .f32) (ix2 p (0 : Fin 1)) = cnt (col I p) := by
  obtain ⟨e0, e1⟩ := idx1_4 t
  refine Eq.trans ?_ (hcnt (col I p))
  unfold iblk1
  rw [View.read_apply]
  show V c main_v20 _ = V c main_v20 _
  congr 1
  funext a
  apply Fin.ext
  match a with
  | ⟨0, _⟩ => show win1_4.index t (0 : Fin 2) * 1024 + 1 * p.val = I.val * 1024 + p.val; rw [e0, hI]; omega
  | ⟨1, _⟩ => show win1_4.index t (1 : Fin 2) * 1 + 1 * 0 = 0; rw [e1]

/-- One column step advances both folds by the step's column tile. -/
theorem step_adv (f : Mat) (l : Lab) (i : grid1.Coords) (I J : Fin 8) (hI : (i 0).val = I.val) (hJ : (i 1).val = J.val) (x0 : Vec Ideal S1024x128 .bf16) (x1 : Vec Ideal S8192x128 .bf16) (x2 : Vec Ideal S1024x1 .i32) (x3 : Vec Ideal S1x8192 .i32) (s m : Vec Ideal S1024x1 .f32) (h0 : ∀ p k, x0 (ix2 p k) = f (col I p) k) (h1 : ∀ g k, x1 (ix2 g k) = f g k) (h2 : ∀ p, x2 (ix2 p (0 : Fin 1)) = l (col I p)) (h3 : ∀ g, x3 (ix2 (0 : Fin 1) g) = l g) (p : Fin 1024)
    (hs : s (ix2 p (0 : Fin 1)) = posAcc f l (col I p) J.val) (hm : m (ix2 p (0 : Fin 1)) = negAcc f l (col I p) J.val) :
    k1_pay1 (F := Ideal) (k1_pay9 (F := Ideal) i x0 (colRows i x1) x2 (colLabs i x3) s) (ix2 p (0 : Fin 1)) = posAcc f l (col I p) (J.val + 1)
    ∧ k1_pay2 (F := Ideal) (k1_pay8 (F := Ideal) x0 (colRows i x1) x2 (colLabs i x3)) m (ix2 p (0 : Fin 1)) = negAcc f l (col I p) (J.val + 1) :=
  ⟨(stepSum f l i I J hI hJ x0 x1 x2 x3 s h0 h1 h2 h3 p).trans ((congrArg (fun z => z + posTile f l (col I p) J) hs).trans (posAcc_succ f l (col I p) J).symm),
    (stepMax f l i I J hI hJ x0 x1 x2 x3 m h0 h1 h2 h3 p).trans ((congrArg (fun z => max z (negTile f l (col I p) J)) hm).trans (negAcc_succ f l (col I p) J).symm)⟩

/-- After point t = 8·I + J the two running values of row tile I are the folds over column tiles 0 … J, given those of the
    point before; at J = 0 the reset values are the empty folds. -/
theorem acc_step (V : (c : Dev nD) → (b : Ref sig .tc) → Buf (Elt Ideal) ((c : Thread nD τ).loc b)) (c : Dev nD) (f : Mat) (l : Lab) (hf : ∀ i k, V c main_v0 (ix2 i k) = f i k) (hr : ∀ i, V c main_v21 (ix2 i 0) = l i) (hc : ∀ j, V c main_v22 (ix2 0 j) = l j) (t : Fin cfg1.N) (I J : Fin 8) (hI : I.val = t.val / 8) (hJ : J.val = t.val % 8)
    (ih : ¬t.val % 8 = 0 → ∀ p : Fin 1024, (prev1 V c t).1 (ix2 p (0 : Fin 1)) = posAcc f l (col I p) J.val ∧ (prev1 V c t).2 (ix2 p (0 : Fin 1)) = negAcc f l (col I p) J.val) (p : Fin 1024) :
    (outsAt1 V c t.val t.isLt).2.1 (ix2 p (0 : Fin 1)) = posAcc f l (col I p) (J.val + 1)
    ∧ (outsAt1 V c t.val t.isLt).2.2 (ix2 p (0 : Fin 1)) = negAcc f l (col I p) (J.val + 1) := by
  have adv := fun (s m : Vec Ideal S1024x1 .f32) => step_adv f l (grid1.coords t) I J ((gridCoords t).1.trans hI.symm) ((gridCoords t).2.trans hJ.symm) (iblk1 V c 0 t) (iblk1 V c 1 t) (iblk1 V c 2 t) (iblk1 V c 3 t) s m (blk0_apply V c f l hf t I hI) (blk1_apply V c f l hf t) (blk2_apply V c f l hr t I hI) (blk3_apply V c f l hc t) p
  by_cases h0 : t.val % 8 = 0
  · have h1 : ¬t.val % 8 = 7 := by omega
    have hJ0 : J.val = 0 := by omega
    have a := adv (k1_pay4 (F := Ideal)) (k1_pay5 (F := Ideal)) ((pay4_apply p).trans ((posAcc_zero f l (col I p)).symm.trans (by rw [hJ0])))
      ((pay5_apply p).trans ((negAcc_zero f l (col I p)).symm.trans (by rw [hJ0])))
    rw [outsAt1_A V c t h0 h1]
    dsimp only [ptA, outs3]
    exact ⟨(congrFun (soutA0_eq (F := Ideal) c (grid1.coords t) (opsAt t) (iblk1 V c 0 t) (iblk1 V c 1 t) (iblk1 V c 2 t) (iblk1 V c 3 t) (iblk1 V c 4 t) ((hcond1_0 t).mpr h0) (fun h => h1 ((hcond1_1 t).mp h))) (ix2 p (0 : Fin 1))).trans a.1, (congrFun (soutA1_eq (F := Ideal) c (grid1.coords t) (opsAt t) (iblk1 V c 0 t) (iblk1 V c 1 t) (iblk1 V c 2 t) (iblk1 V c 3 t) (iblk1 V c 4 t) ((hcond1_0 t).mpr h0) (fun h => h1 ((hcond1_1 t).mp h))) (ix2 p (0 : Fin 1))).trans a.2⟩
  · have a := adv (prev1 V c t).1 (prev1 V c t).2 (ih h0 p).1 (ih h0 p).2
    by_cases h1 : t.val % 8 = 7
    · rw [outsAt1_C V c t h0 h1]
      dsimp only [ptC, outs3]
      exact ⟨(congrFun (soutC0_eq (F := Ideal) c (grid1.coords t) (opsAt t) (iblk1 V c 0 t) (iblk1 V c 1 t) (iblk1 V c 2 t) (iblk1 V c 3 t) (iblk1 V c 4 t) (prev1 V c t).1 (prev1 V c t).2 (fun h => h0 ((hcond1_0 t).mp h)) ((hcond1_1 t).mpr h1)) (ix2 p (0 : Fin 1))).trans a.1, (congrFun (soutC1_eq (F := Ideal) c (grid1.coords t) (opsAt t) (iblk1 V c 0 t) (iblk1 V c 1 t) (iblk1 V c 2 t) (iblk1 V c 3 t) (iblk1 V c 4 t) (prev1 V c t).1 (prev1 V c t).2 (fun h => h0 ((hcond1_0 t).mp h)) ((hcond1_1 t).mpr h1)) (ix2 p (0 : Fin 1))).trans a.2⟩
    · rw [outsAt1_B V c t h0 h1]
      dsimp only [ptB, outs3]
      exact ⟨(congrFun (soutB0_eq (F := Ideal) c (grid1.coords t) (opsAt t) (iblk1 V c 0 t) (iblk1 V c 1 t) (iblk1 V c 2 t) (iblk1 V c 3 t) (iblk1 V c 4 t) (prev1 V c t).1 (prev1 V c t).2 (fun h => h0 ((hcond1_0 t).mp h)) (fun h => h1 ((hcond1_1 t).mp h))) (ix2 p (0 : Fin 1))).trans a.1, (congrFun (soutB1_eq (F := Ideal) c (grid1.coords t) (opsAt t) (iblk1 V c 0 t) (iblk1 V c 1 t) (iblk1 V c 2 t) (iblk1 V c 3 t) (iblk1 V c 4 t) (prev1 V c t).1 (prev1 V c t).2 (fun h => h0 ((hcond1_0 t).mp h)) (fun h => h1 ((hcond1_1 t).mp h))) (ix2 p (0 : Fin 1))).trans a.2⟩

theorem acc_inv (V : (c : Dev nD) → (b : Ref sig .tc) → Buf (Elt Ideal) ((c : Thread nD τ).loc b)) (c : Dev nD) (f : Mat) (l : Lab) (hf : ∀ i k, V c main_v0 (ix2 i k) = f i k) (hr : ∀ i, V c main_v21 (ix2 i 0) = l i) (hc : ∀ j, V c main_v22 (ix2 0 j) = l j) : ∀ (n : ℕ) (hn : n < cfg1.N) (I J : Fin 8) (hI : I.val = n / 8) (hJ : J.val = n % 8) (p : Fin 1024),
    (outsAt1 V c n hn).2.1 (ix2 p (0 : Fin 1)) = posAcc f l (col I p) (J.val + 1)
    ∧ (outsAt1 V c n hn).2.2 (ix2 p (0 : Fin 1)) = negAcc f l (col I p) (J.val + 1) := by
  intro n
  induction n with
  | zero =>
    intro hn I J hI hJ p
    exact acc_step V c f l hf hr hc ⟨0, hn⟩ I J hI hJ (fun h => absurd (Nat.zero_mod _) h) p
  | succ n ih =>
    intro hn I J hI hJ p
    refine acc_step V c f l hf hr hc ⟨n + 1, hn⟩ I J hI hJ (fun h0 q => ?_) p
    have h0' : ¬(n + 1) % 8 = 0 := h0
    have hJ' : (n % 8) < 8 := Nat.mod_lt _ (by decide)
    have e := ih (Nat.lt_of_succ_lt hn) I ⟨n % 8, hJ'⟩ (by omega) rfl q
    have ev : J.val = (⟨n % 8, hJ'⟩ : Fin 8).val + 1 := by show J.val = n % 8 + 1; omega
    rw [ev]
    exact e

/-- The loss block stored at a last column step is the tiled row loss of the tile's rows. -/
theorem out_last (V : (c : Dev nD) → (b : Ref sig .tc) → Buf (Elt Ideal) ((c : Thread nD τ).loc b)) (c : Dev nD) (f : Mat) (l : Lab) (cnt : Fin 8192 → EReal) (hf : ∀ i k, V c main_v0 (ix2 i k) = f i k) (hr : ∀ i, V c main_v21 (ix2 i 0) = l i) (hc : ∀ j, V c main_v22 (ix2 0 j) = l j) (hcnt : ∀ i, V c main_v20 (ix2 i 0) = cnt i) (t : Fin cfg1.N) (h1 : t.val % 8 = 7) (I : Fin 8) (hI : I.val = t.val / 8) (p : Fin 1024) :
    (outsAt1 V c t.val t.isLt).1 (ix2 p (0 : Fin 1)) = lossKT f l cnt (col I p) := by
  have h0 : ¬t.val % 8 = 0 := by omega
  have hprev := acc_inv V c f l hf hr hc (t.val - 1) (Nat.lt_of_le_of_lt (Nat.sub_le _ _) t.isLt) I ⟨6, by decide⟩ (by omega)
    (by show 6 = (t.val - 1) % 8; omega) p
  have hJ : ((⟨7, by decide⟩ : Fin 8)).val = t.val % 8 := by show 7 = t.val % 8; omega
  rw [outsAt1_C V c t h0 h1]
  dsimp only [ptC, outs3]
  refine (congrFun (outC5_eq (F := Ideal) c (grid1.coords t) (opsAt t) (iblk1 V c 0 t) (iblk1 V c 1 t) (iblk1 V c 2 t) (iblk1 V c 3 t) (iblk1 V c 4 t) (prev1 V c t).1 (prev1 V c t).2 (fun h => h0 ((hcond1_0 t).mp h)) ((hcond1_1 t).mpr h1)) (ix2 p (0 : Fin 1))).trans ?_
  refine (stepLoss f l cnt (grid1.coords t) I ⟨7, by decide⟩ ((gridCoords t).1.trans hI.symm) ((gridCoords t).2.trans hJ.symm) (iblk1 V c 0 t) (iblk1 V c 1 t) (iblk1 V c 2 t) (iblk1 V c 3 t) (iblk1 V c 4 t) (prev1 V c t).1 (prev1 V c t).2 (blk0_apply V c f l hf t I hI) (blk1_apply V c f l hf t) (blk2_apply V c f l hr t I hI) (blk3_apply V c f l hc t)
    (blk4_apply V c cnt hcnt t I hI) p (posAcc f l (col I p) 7) (negAcc f l (col I p) 7) hprev.1 hprev.2).trans ?_
  exact lossOf_congr (posAcc_succ f l (col I p) ⟨7, by decide⟩).symm (negAcc_succ f l (col I p) ⟨7, by decide⟩).symm rfl

abbrev lossArr (f : Mat) (l : Lab) (cnt : Fin 8192 → EReal) : S8192x1.Idx → EReal := fun y => lossKT f l cnt (y 0)

theorem flushed_eq (V : (c : Dev nD) → (b : Ref sig .tc) → Buf (Elt Ideal) ((c : Thread nD τ).loc b)) (c : Dev nD) (f : Mat) (l : Lab) (cnt : Fin 8192 → EReal) (hf : ∀ i k, V c main_v0 (ix2 i k) = f i k) (hr : ∀ i, V c main_v21 (ix2 i 0) = l i) (hc : ∀ j, V c main_v22 (ix2 0 j) = l j) (hcnt : ∀ i, V c main_v20 (ix2 i 0) = cnt i) (t : Fin cfg1.N) (hfl : (cfg1.win 5).flush t = true) :
    (dat1 V c).flushed 5 t = ((cfg1.win 5).blk t).view.read (Elt Ideal) (lossArr f l cnt) := by
  have h7 : t.val % 8 = 7 := (flush1_5 t).mp hfl
  have hN : cfg1.N = 64 := N_1
  have hlt : t.val / 8 < 8 := by have := t.isLt; omega
  obtain ⟨e0, e1⟩ := idx1_5 t
  show (cfg1.win 5).cut (grid1.coords t) ((dat1 V c).after 5 t) = _
  rw [after1_5]
  funext y
  have key := out_last V c f l cnt hf hr hc hcnt t h7 ⟨t.val / 8, hlt⟩ rfl (y 0)
  show (outsAt1 V c t.val t.isLt).1 y = lossKT f l cnt ((((cfg1.win 5).blk t).view.emb y) 0)
  refine Eq.trans (congrArg (outsAt1 V c t.val t.isLt).1 ?_) (key.trans (congrArg (lossKT f l cnt) (Fin.ext ?_)))
  · funext a
    match a with
    | ⟨0, _⟩ => rfl
    | ⟨1, _⟩ => exact Fin.ext (by have h1 : (y 1).val < 1 := (y 1).isLt; show (y 1).val = 0; omega)
  · show t.val / 8 * 1024 + (y 0).val = win1_5.index t (0 : Fin 2) * 1024 + 1 * (y 0).val
    rw [e0]; omega

theorem trip_final (V : (c : Dev nD) → (b : Ref sig .tc) → Buf (Elt Ideal) ((c : Thread nD τ).loc b)) (c : Dev nD) (f : Mat) (l : Lab) (cnt : Fin 8192 → EReal) (hf : ∀ i k, V c main_v0 (ix2 i k) = f i k) (hr : ∀ i, V c main_v21 (ix2 i 0) = l i) (hc : ∀ j, V c main_v22 (ix2 0 j) = l j) (hcnt : ∀ i, V c main_v20 (ix2 i 0) = cnt i) (i : Fin 8192) :
    (dat1 (F := Ideal) V c).arrAt 5 cfg1.N (ix2 i 0) = lossKT f l cnt i := by
  have hN : cfg1.N = 64 := N_1
  have hfin := (dat1 V c).arrAt_eq_of_cover 5 (lossArr f l cnt) (fun t hfl => flushed_eq V c f l cnt hf hr hc hcnt t hfl) (fun j => by
    have hj0 : (j 0).val < 8192 := (j 0).isLt
    have hj1 : (j 1).val < 1 := (j 1).isLt
    obtain ⟨T, hT⟩ : ∃ T : Fin cfg1.N, T.val = (j 0).val / 1024 * 8 + 7 := ⟨⟨(j 0).val / 1024 * 8 + 7, by rw [hN]; omega⟩, rfl⟩
    obtain ⟨e0, e1⟩ := idx1_5 T
    refine ⟨T, (flush1_5 T).mpr (by omega), ?_⟩
    show j ∈ ((View.whole main_v23).slice (win1_5.rect T)).set
    rw [View.set_slice_whole, Rect.mem_set_unit]
    intro a
    match a with
    | ⟨0, _⟩ =>
      show win1_5.index T (0 : Fin 2) * 1024 ≤ (j 0).val ∧ (j 0).val < win1_5.index T (0 : Fin 2) * 1024 + 1024
      rw [e0]; omega
    | ⟨1, _⟩ =>
      show win1_5.index T (1 : Fin 2) * 1 ≤ (j 1).val ∧ (j 1).val < win1_5.index T (1 : Fin 2) * 1 + 1
      rw [e1]; omega)
  exact (congrFun hfin (ix2 i 0)).trans rfl

end Cert.KernelIdeal.Val

end
-- ==== Proof.Val.Count.lean ====
import Idealize.ShloMosaic.Lib.StableHlo.Predicate
import Idealize.ShloMosaic.Lib.ValueIdx
import Idealize.ShloMosaic.Lib.ValueIdxRank1

open scoped BigOperators

namespace Cert.KernelIdeal.Val

open Idealize.ShloMosaic Idealize.ShloMosaic.ValueIdx

-- Adding one at a position at each matching step counts the matching steps.
theorem foldl_count {J I : Type} [DecidableEq I] (g : J → Option I)
    (step : (I → BitVec 32) → J → (I → BitVec 32))
    (hsome : ∀ r n i, g n = some i → step r n = fun i' => if i' = i then r i + 1#32 else r i')
    (hnone : ∀ r n, g n = none → step r n = r)
    (L : List J) (r : I → BitVec 32) (i' : I) :
    (L.foldl step r) i' = r i' + BitVec.ofNat 32 (L.countP fun n => g n = some i') := by
  induction L generalizing r with
  | nil => simp
  | cons n L ih =>
    rw [List.foldl_cons, ih, List.countP_cons]
    cases hg : g n with
    | none =>
      rw [hnone r n hg]
      simp
    | some i =>
      rw [hsome r n i hg]
      by_cases hi : i' = i
      · subst hi
        simp only [if_true, decide_true]
        rw [BitVec.add_assoc]
        congr 1
        apply BitVec.eq_of_toNat_eq
        simp only [BitVec.toNat_add, BitVec.toNat_ofNat]
        omega
      · have : ¬ (some i = some i') := fun h => hi (Option.some.inj h).symm
        simp [hi, this]

theorem countP_finRange {n : Nat} (p : Fin n → Prop) [DecidablePred p] :
    (List.finRange n).countP (fun k => p k) = (Finset.univ.filter p).card := by
  rw [List.countP_eq_length_filter]
  simp only [Finset.card, Finset.filter_val, Fin.univ_val_map, Fin.univ_def, Multiset.filter_coe, Multiset.coe_card]

theorem scatter_addi_card {s si u : Shape} {w : Nat} (d : ScatterDims s si u) (x : IVec s 32) (idx : IVec si w)
    (upd : IVec u 32) (hx : ∀ i, x i = 0#32) (hupd : ∀ j, upd j = 1#32) (i' : s.Idx) :
    Host.scatter d IntOp.addi x idx upd i'
      = BitVec.ofNat 32 (Finset.univ.filter fun j : u.Idx => d.resultIdx? j idx = some i').card := by
  unfold Host.scatter
  rw [foldl_count (fun n : Fin u.numel => d.resultIdx? (u.rowMajor.symm n) idx) _ ?hs ?hn, hx, BitVec.zero_add,
    countP_finRange (fun n : Fin u.numel => d.resultIdx? (u.rowMajor.symm n) idx = some i')]
  · congr 1
    exact Finset.card_equiv u.rowMajor.symm (fun n => by simp)
  case hs =>
    intro r n i h
    simp only [h, hupd]
    rfl
  case hn =>
    intro r n h
    simp only [h]

-- An update lands at position q exactly when its index reads q.
theorem resultIdx_col {N n w : Nat} (d : ScatterDims ⟨1, ![N]⟩ ⟨2, ![n, 1]⟩ ⟨1, ![n]⟩)
    (hiw : d.insertedWindowDims = [0]) (hsd : d.scatterDimsToOperandDims = [0]) (hivd : d.indexVectorDim = 1)
    (idx : IVec ⟨2, ![n, 1]⟩ w) (p : Fin n) (q : Fin N) :
    d.resultIdx? (ix1 p) idx = some (ix1 q) ↔ (idx (ix2 p 0)).toInt = (q.val : Int) := by
  have hm : (0 : Fin 1) ∈ d.scatterDimsToOperandDims := by rw [hsd]; exact List.mem_singleton.mpr rfl
  have hk : (0 : Fin 1) ∉ d.sKept := by
    simp [ScatterDims.sKept, Shape.kept, hiw]
  have hsi : d.siIdx (ix1 p) ⟨d.scatterDimsToOperandDims.idxOf (0 : Fin 1), List.idxOf_lt_length_iff.2 hm⟩ = ix2 p 0 := by
    funext b
    match b with
    | ⟨0, _⟩ =>
      unfold ScatterDims.siIdx
      rw [dif_neg (by rw [hivd]; simp)]
      unfold ScatterDims.siCoord
      apply Fin.ext
      simp only [Fin.val_cast]
      have e : ∀ X : Fin 1, ((ix1 p : (⟨1, ![n]⟩ : Shape).Idx) X).val = p.val := fun X => by
        have hX : X = 0 := Subsingleton.elim _ _
        subst hX; rfl
      exact e _
    | ⟨1, _⟩ =>
      unfold ScatterDims.siIdx
      rw [dif_pos (by rw [hivd])]
      apply Fin.ext
      show List.idxOf (0 : Fin 1) d.scatterDimsToOperandDims = 0
      rw [hsd]; simp
  have hstart : ∀ a : Fin 1, d.start (ix1 p) idx a = (idx (ix2 p 0)).toInt :=
    Fin.forall_fin_one.2 (by unfold ScatterDims.start; rw [dif_pos hm, hsi])
  have hwin : ∀ a : Fin 1, d.window (ix1 p) a = 0 :=
    Fin.forall_fin_one.2 (by unfold ScatterDims.window; rw [dif_neg hk])
  have hsize : ∀ a : Fin 1, (⟨1, ![N]⟩ : Shape).size a = N := Fin.forall_fin_one.2 rfl
  unfold ScatterDims.resultIdx?
  constructor
  · intro h
    split at h
    · next hc =>
      have h0 := congrFun (Option.some.inj h) 0
      have hv : ((d.start (ix1 p) idx 0 + (d.window (ix1 p) 0 : Int)).toNat) = q.val := congrArg Fin.val h0
      have hc0 := hc 0
      rw [hstart, hwin] at hv hc0
      simp only [Nat.cast_zero, add_zero] at hv hc0
      omega
    · exact absurd h (by simp)
  · intro h
    have hc : ∀ a : Fin 1, 0 ≤ d.start (ix1 p) idx a + (d.window (ix1 p) a : Int) ∧
        d.start (ix1 p) idx a + (d.window (ix1 p) a : Int) < ((⟨1, ![N]⟩ : Shape).size a : Int) := by
      intro a
      rw [hstart, hwin, hsize, h]
      have := q.isLt
      simp only [Nat.cast_zero, add_zero]
      omega
    rw [dif_pos hc]
    congr 1
    funext a
    have ha : a = 0 := Subsingleton.elim _ _
    subst ha
    apply Fin.ext
    show (d.start (ix1 p) idx 0 + (d.window (ix1 p) 0 : Int)).toNat = q.val
    rw [hstart, hwin, h]
    simp

theorem scatter_count_col {N n w : Nat} (d : ScatterDims ⟨1, ![N]⟩ ⟨2, ![n, 1]⟩ ⟨1, ![n]⟩)
    (hiw : d.insertedWindowDims = [0]) (hsd : d.scatterDimsToOperandDims = [0]) (hivd : d.indexVectorDim = 1)
    (x : IVec ⟨1, ![N]⟩ 32) (idx : IVec ⟨2, ![n, 1]⟩ w) (upd : IVec ⟨1, ![n]⟩ 32)
    (hx : ∀ i, x i = 0#32) (hupd : ∀ j, upd j = 1#32) (q : Fin N) :
    Host.scatter d IntOp.addi x idx upd (ix1 q)
      = BitVec.ofNat 32 (Finset.univ.filter fun p : Fin n => (idx (ix2 p 0)).toInt = (q.val : Int)).card := by
  rw [scatter_addi_card d x idx upd hx hupd]
  congr 1
  refine Finset.card_equiv idxEquiv1 (fun j => ?_)
  simp only [Finset.mem_filter, Finset.mem_univ, true_and]
  rw [eq_ix1 j]
  exact resultIdx_col d hiw hsd hivd idx (j 0) q

theorem gather_col {α : Type} {N n w : Nat} (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (p : Fin n) (q : Fin N)
    (h : (idx (ix2 p 0)).toInt = (q.val : Int)) :
    Host.gather d x idx (ix1 p) = x (ix1 q) := by
  have hN : 0 < N := Nat.lt_of_le_of_lt (Nat.zero_le _) q.isLt
  have e1 : (ix1 p : (⟨1, ![n]⟩ : Shape).Idx) = Shape.Idx.ofFin p := Shape.Idx.eq_ofFin (ix1 p)
  have e2 : (StableHlo.Predicate.ixP p : (⟨2, ![n, 1]⟩ : Shape).Idx) = ix2 p 0 := (eq_ix2 _).trans rfl
  have h' : (idx (StableHlo.Predicate.ixP p)).toInt = (q.val : Int) := by rw [e2]; exact h
  rw [e1, StableHlo.Predicate.gather_take d hcoll hob hsim hivd x idx p hN]
  congr 1
  funext a
  have ha : a = 0 := Subsingleton.elim _ _
  subst ha
  apply Fin.ext
  show min (idx (StableHlo.Predicate.ixP p)).toInt.toNat (N - 1) = q.val
  rw [h']
  have := q.isLt
  simp only [Int.toNat_natCast]
  omega

-- Scattering ones at the labels and gathering at the labels gives each row the number of rows with its label.
theorem count_chain {N : Nat} (ds : ScatterDims ⟨1, ![N]⟩ ⟨2, ![N, 1]⟩ ⟨1, ![N]⟩)
    (dg : GatherDims ⟨1, ![N]⟩ ⟨2, ![N, 1]⟩ ⟨1, ![N]⟩)
    (hiw : ds.insertedWindowDims = [0]) (hsd : ds.scatterDimsToOperandDims = [0]) (hivs : ds.indexVectorDim = 1)
    (hcoll : dg.collapsedSliceDims = [0]) (hob : dg.operandBatchingDims = [])
    (hsim : dg.startIndexMap = [0]) (hivg : dg.indexVectorDim = 1)
    (x upd : IVec ⟨1, ![N]⟩ 32) (idx idx' : IVec ⟨2, ![N, 1]⟩ 32) (l : Fin N → BitVec 32)
    (hx : ∀ i, x i = 0#32) (hupd : ∀ j, upd j = 1#32)
    (hidx : ∀ p, idx (ix2 p 0) = l p) (hidx' : ∀ p, idx' (ix2 p 0) = l p)
    (hr : ∀ p, 0 ≤ (l p).toInt ∧ (l p).toInt < (N : Int)) (i : Fin N) :
    Host.gather dg (Host.scatter ds IntOp.addi x idx upd) idx' (ix1 i)
      = BitVec.ofNat 32 (Finset.univ.filter fun j : Fin N => l j = l i).card := by
  obtain ⟨h0, h1⟩ := hr i
  have hq : (l i).toInt.toNat < N := by omega
  have hqi : (idx' (ix2 i 0)).toInt = (((⟨(l i).toInt.toNat, hq⟩ : Fin N).val : ℕ) : Int) := by
    rw [hidx']; simp only []; omega
  rw [gather_col dg hcoll hob hsim hivg _ idx' i ⟨(l i).toInt.toNat, hq⟩ hqi,
    scatter_count_col ds hiw hsd hivs x idx upd hx hupd]
  congr 2
  ext j
  simp only [Finset.mem_filter, Finset.mem_univ, true_and, hidx]
  constructor
  · intro h
    apply BitVec.eq_of_toInt_eq
    omega
  · intro h
    rw [h]; omega

theorem toInt_ofNat_sub_one (c : ℕ) (h1 : 1 ≤ c) (h2 : c < 2 ^ 31) :
    (IntOp.subi (BitVec.ofNat 32 c) 1#32).toInt = ((c - 1 : ℕ) : Int) := by
  show (BitVec.ofNat 32 c - 1#32).toInt = _
  rw [StableHlo.Predicate.sub_one_ofNat c h1 (by omega), StableHlo.Predicate.toInt_ofNat_small (c - 1) (by omega)]

theorem card_same_sub_one {N : Nat} (l : Fin N → BitVec 32) (i : Fin N) :
    (Finset.univ.filter fun j : Fin N => l i = l j ∧ i ≠ j).card
      = (Finset.univ.filter fun j : Fin N => l j = l i).card - 1 := by
  have hmem : i ∈ Finset.univ.filter fun j : Fin N => l j = l i := by simp
  rw [← Finset.card_erase_of_mem hmem]
  congr 1
  ext j
  simp only [Finset.mem_filter, Finset.mem_univ, true_and, Finset.mem_erase]
  constructor
  · rintro ⟨h, hne⟩; exact ⟨fun e => hne e.symm, h.symm⟩
  · rintro ⟨hne, h⟩; exact ⟨h.symm, fun e => hne e.symm⟩

theorem slt_zero_of_nonneg (a : BitVec 32) (h : 0 ≤ a.toInt) : IntOp.cmpi .slt a 0#32 = 0#1 := by
  unfold IntOp.cmpi
  have : a.slt 0#32 = false := by
    simp only [BitVec.slt, BitVec.toInt_zero, decide_eq_false_iff_not]; omega
  rw [this]; rfl

end Cert.KernelIdeal.Val
-- ==== Proof.Val.Host.lean ====
import proofs.«429060_j8641474200296_2_alg».proof.Proof.KI.Fold
import proofs.«429060_j8641474200296_2_alg».proof.Proof.Gen.KernelIdeal.Launch
import proofs.«429060_j8641474200296_2_alg».proof.Proof.Gen.KernelIdeal.Regions
import proofs.«429060_j8641474200296_2_alg».proof.Proof.Spec
import proofs.«429060_j8641474200296_2_alg».proof.Proof.Val.Count
import Idealize.ShloMosaic.Lib.StableHlo.Run
import Idealize.ShloMosaic.Lib.StableHlo.Predicate
import Idealize.ShloMosaic.Lib.ValueIdx
import Idealize.ShloMosaic.Lib.ValueIdxRank1
import Idealize.ShloMosaic.Lib.Pipeline.Value
import Idealize.ShloMosaic.PureOps.Ideal.Laws

noncomputable section

namespace Cert.KernelIdeal.Val

open Cert.KernelIdeal Cert.KernelIdeal.Gen Cert.KernelIdeal.Hand
open Idealize.ShloMosaic Idealize.ShloMosaic.TcCoe Idealize.ShloMosaic.ValueIdx

variable (m : (ℓ : Loc nD τ sig) → Buf (Elt Ideal) ℓ)

theorem host_fnorm (c : Dev nD) :
    W2 (F := Ideal) m c (Proc.devRef .tc main_v0) = W1 m c (Proc.devRef .tc main_v0) :=
  StableHlo.after_of_writes_sub hostOps1 _ hostOps1_writes (by decide)

theorem rm_col (i : Fin 8192) : (S8192.rowMajor (ix1 i)).val = (S8192x1.rowMajor (ix2 i 0)).val := by
  rw [Shape.rowMajor_val_one, Shape.rowMajor_val_two]
  show i.val = i.val * 1 + 0
  omega

theorem rm_row (j : Fin 8192) : (S8192.rowMajor (ix1 j)).val = (S1x8192.rowMajor (ix2 0 j)).val := by
  rw [Shape.rowMajor_val_one, Shape.rowMajor_val_two]
  show j.val = 0 * 8192 + j.val
  omega

theorem host_lrow (c : Dev nD) (i : Fin 8192) :
    W2 (F := Ideal) m c (Proc.devRef .tc main_v21) (ix2 i 0) = m ((c : Thread nD τ).loc main_arg1) (ix1 i) := by
  show StableHlo.after hostOps1 _ (Proc.devRef .tc main_v21) (ix2 i 0) = _
  after_results
  show shapeCast S8192x1 (W1 m c (Proc.devRef .tc main_arg1)) shapeCasts_S8192_S8192x1 (ix2 i 0) = _
  rw [W1_main_arg1, shapeCast_apply _ _ (ix2 i 0) (ix1 i) (rm_col i)]

theorem host_lcol (c : Dev nD) (j : Fin 8192) :
    W2 (F := Ideal) m c (Proc.devRef .tc main_v22) (ix2 0 j) = m ((c : Thread nD τ).loc main_arg1) (ix1 j) := by
  show StableHlo.after hostOps1 _ (Proc.devRef .tc main_v22) (ix2 0 j) = _
  after_results
  show shapeCast S1x8192 (W1 m c (Proc.devRef .tc main_arg1)) shapeCasts_S8192_S1x8192 (ix2 0 j) = _
  rw [W1_main_arg1, shapeCast_apply _ _ (ix2 0 j) (ix1 j) (rm_row j)]

theorem wrap_col (lab : IVec S8192 32) (h0 : S_.BroadcastsInDim S8192 (![] : Fin 0 → Fin S8192.rank))
    (hc : S8192.BroadcastsInDim S8192x1 (![0] : Fin 1 → Fin S8192x1.rank)) (p : Fin 8192)
    (hp : 0 ≤ (lab (ix1 p)).toInt) :
    broadcastInDim S8192x1 ![0] hc
        (select (cmpi .slt lab (broadcastInDim S8192 ![] h0 (constantI S_ 32 0#32)))
          (addi lab (broadcastInDim S8192 ![] h0 (constantI S_ 32 8192#32))) lab) (ix2 p 0)
      = lab (ix1 p) := by
  have e2 : (ix2 p 0 : S8192x1.Idx) = StableHlo.Predicate.ixP p := ((eq_ix2 _).trans rfl).symm
  have e1 : (Shape.Idx.ofFin p : S8192.Idx) = ix1 p := (Shape.Idx.eq_ofFin (ix1 p)).symm
  rw [e2, StableHlo.Predicate.bcast_col1, e1]
  show Scalar.select (IntOp.cmpi .slt (lab (ix1 p)) 0#32) (IntOp.addi (lab (ix1 p)) 8192#32) (lab (ix1 p)) = lab (ix1 p)
  rw [slt_zero_of_nonneg _ hp, select_zero]

-- Labels in range index the counters, so the gathered count less one is the number of positives.
set_option maxHeartbeats 1600000 in
theorem host_cnt (c : Dev nD) (l : Cert.Triplet.Lab) (hl : ∀ i, m ((c : Thread nD τ).loc main_arg1) (ix1 i) = l i)
    (hrange : Cert.Triplet.InRange l) (i : Fin 8192) :
    W2 (F := Ideal) m c (Proc.devRef .tc main_v20) (ix2 i 0) = Cert.Triplet.cntE l i := by
  show StableHlo.after hostOps1 _ (Proc.devRef .tc main_v20) (ix2 i 0) = _
  after_results_simp
  rw [W1_main_arg1]
  have hwrap : ∀ p : Fin 8192,
      broadcastInDim S8192x1 ![0] bcast_S8192_S8192x1_0
          (select (cmpi .slt (m ((c : Thread nD τ).loc main_arg1)) (broadcastInDim S8192 ![] bcast_S_S8192 (constantI S_ 32 0#32)))
            (addi (m ((c : Thread nD τ).loc main_arg1)) (broadcastInDim S8192 ![] bcast_S_S8192 (constantI S_ 32 8192#32)))
            (m ((c : Thread nD τ).loc main_arg1))) (ix2 p 0) = l p := by
    intro p
    rw [wrap_col _ _ _ p (by rw [hl p]; exact (hrange p).1), hl p]
  have hr : ∀ p : Fin 8192, 0 ≤ (l p).toInt ∧ (l p).toInt < ((8192 : ℕ) : Int) := fun p => ⟨(hrange p).1, by
    have := (hrange p).2; simpa using this⟩
  show shapeCast S8192x1 _ shapeCasts_S8192_S8192x1 (ix2 i 0) = _
  rw [shapeCast_apply _ _ (ix2 i 0) (ix1 i) (rm_col i)]
  refine (congrArg (fun w : BitVec 32 => (((IntOp.subi w 1#32).toInt : ℝ) : EReal))
    (count_chain scatter_S8192_S8192x1_S8192_n_0_0_1 gather_S8192_S8192x1_S8192_n_0_n_n_0_1_1 rfl rfl rfl rfl rfl rfl rfl
      _ _ _ _ l (fun _ => rfl) (fun _ => rfl) hwrap hwrap hr i)).trans ?_
  have hmem : i ∈ Finset.univ.filter fun j : Fin 8192 => l j = l i := by simp
  have h1 : 1 ≤ (Finset.univ.filter fun j : Fin 8192 => l j = l i).card := Finset.card_pos.mpr ⟨i, hmem⟩
  have h2 : (Finset.univ.filter fun j : Fin 8192 => l j = l i).card < 2 ^ 31 :=
    lt_of_le_of_lt (Finset.card_le_univ _) (by simp)
  show (((IntOp.subi (BitVec.ofNat 32 _) 1#32).toInt : ℝ) : EReal) = _
  rw [toInt_ofNat_sub_one _ h1 h2]
  unfold Cert.Triplet.cntE Cert.Triplet.cntN Cert.Triplet.isPos
  rw [card_same_sub_one l i]
  simp

theorem mean_term (X : FVec Ideal S8192x1 .f32) (hr : S8192x1.ReducesTo [0, 1] S_) (hu : 0 < S_.numel)
    (r : Fin 8192 → EReal) (h : ∀ i, X (ix2 i 0) = r i) :
    Host.divf (Host.reduceAdd X (constant (F := Ideal) S_ .f32 0x00000000#32) hr hu) (constant (F := Ideal) S_ .f32 0x46000000#32) ix0
      = Cert.Triplet.meanRows r := by
  show Ideal.div (Ideal.hostReduceAdd hr X (Ideal.ofBits .f32 0x00000000#32) ix0) (Ideal.ofBits .f32 0x46000000#32) = _
  rw [Ideal.hostReduceAdd_total _ (fun b => b.elim0)]
  unfold Cert.Triplet.meanRows Cert.Triplet.zero Cert.Triplet.nRows
  have hs : ∑ i : S8192x1.Idx, X i = ∑ i : Fin 8192, r i := by
    rw [sum_idx2]
    refine Finset.sum_congr rfl fun a _ => ?_
    rw [Fin.sum_univ_one]
    exact h a
  rw [hs]

-- The result is the mean of the row losses.
theorem host_mean (c : Dev nD) (r : Fin 8192 → EReal)
    (h : ∀ i, W3 (F := Ideal) m c (Proc.devRef .tc main_v23) (ix2 i 0) = r i) :
    W4 (F := Ideal) m c (Proc.devRef .tc main_v25) ix0 = Cert.Triplet.meanRows r := by
  show StableHlo.after hostOps2 _ (Proc.devRef .tc main_v25) ix0 = _
  after_results
  exact mean_term (W3 m c (Proc.devRef .tc main_v23)) _ _ r h

end Cert.KernelIdeal.Val

end
-- ==== Proof.Val.Pre.lean ====
import proofs.«429060_j8641474200296_2_alg».proof.Pre_finite_inputs
import proofs.«429060_j8641474200296_2_alg».proof.Proof.Spec
import Idealize.ShloMosaic.Lib.ReduceAll
import Idealize.ShloMosaic.Lib.ValueIdx

noncomputable section

namespace Cert.KernelIdeal.Val

open Idealize.ShloMosaic Idealize.ShloMosaic.ValueIdx

theorem inf_word : Ideal.ofBits .f32 0x7F800000#32 = (⊤ : EReal) := by
  simp [Ideal.ofBits, Ideal.ieee]

theorem real_of_abs_lt_top (a : EReal) (h : max a (-a) < (⊤ : EReal)) : ∃ r : ℝ, a = (r : EReal) := by
  induction a using EReal.rec with
  | bot => simp at h
  | coe r => exact ⟨r, rfl⟩
  | top => simp at h

-- The precondition being all ones says that every feature is real and every label indexes the rows.
theorem finite_of_pre [Cert.Pre_finite_inputs.Facts] (x : FVec Ideal Cert.Pre_finite_inputs.S8192x128 .f32)
    (lab : IVec Cert.Pre_finite_inputs.S8192 32)
    (h : Cert.Pre_finite_inputs.fn (F := Ideal) x lab = fun _ => 1#1) :
    Cert.Triplet.Finite (fun i k => x (ix2 i k)) ∧ Cert.Triplet.InRange (fun i => lab (ix1 i)) := by
  have h0 := congrFun h ix0
  dsimp only [Cert.Pre_finite_inputs.fn] at h0
  obtain ⟨h12, h3⟩ := IntOp.andi_eq_one.1 h0
  obtain ⟨h1, h2⟩ := IntOp.andi_eq_one.1 h12
  refine ⟨fun i k => ?_, fun i => ⟨?_, ?_⟩⟩
  · have e := Host.reduce_andi_all _ _ _ _ ix0 h1 (ix2 i k)
    have e' : Ideal.cmp .olt (max (x (ix2 i k)) (-(x (ix2 i k)))) (Ideal.ofBits .f32 0x7F800000#32) = 1#1 := e
    rw [inf_word] at e'
    refine real_of_abs_lt_top _ ?_
    unfold Ideal.cmp at e'
    by_contra hn
    simp [hn] at e'
  · have e := Host.reduce_andi_all _ _ _ _ ix0 h2 (ix1 i)
    have e' : IntOp.cmpi .sge (lab (ix1 i)) 0#32 = 1#1 := e
    have := IntOp.cmpi_sge.1 e'
    simpa using this
  · have e := Host.reduce_andi_all _ _ _ _ ix0 h3 (ix1 i)
    have e' : IntOp.cmpi .slt (lab (ix1 i)) 8192#32 = 1#1 := e
    have := IntOp.cmpi_slt.1 e'
    have h8 : (8192#32 : BitVec 32).toInt = 8192 := by decide
    rw [h8] at this
    exact this

end Cert.KernelIdeal.Val

end
-- ==== Proof.Val.Algebra.lean ====
import proofs.«429060_j8641474200296_2_alg».proof.Proof.Spec
import Idealize.ShloMosaic.PureOps.Ideal
import Mathlib.Data.EReal.Basic
import Mathlib.Data.EReal.Operations
import Mathlib.Algebra.BigOperators.Fin
import Mathlib.Algebra.BigOperators.Group.Finset.Basic
import Mathlib.Algebra.Order.BigOperators.Group.Finset
import Mathlib.Analysis.SpecialFunctions.Pow.Real
import Mathlib.Data.Finset.Lattice.Fold
import Mathlib.Tactic.NormNum
import Mathlib.Tactic.Positivity
import Mathlib.Tactic.Linarith
import Mathlib.Tactic.Choose
import Mathlib.Tactic.ByContra

noncomputable section

open scoped BigOperators

namespace Cert.Triplet.Alg

open Idealize.ShloMosaic

theorem zero_eq : zero = 0 := by
  simp [zero, Ideal.ofBits, Ideal.ieee]

theorem one_eq : one = 1 := by
  simp [one, Ideal.ofBits, Ideal.ieee, -EReal.coe_mul]; norm_num

theorem negFill_eq : negFill = ((-1000000000 : ℝ) : EReal) := by
  simp [negFill, Ideal.ofBits, Ideal.ieee, -EReal.coe_mul]; norm_num

theorem halfFill_eq : halfFill = ((-500000000 : ℝ) : EReal) := by
  simp [halfFill, Ideal.ofBits, Ideal.ieee, -EReal.coe_mul]; norm_num

theorem ninf_eq : Ideal.ofBits .f32 0xFF800000#32 = (⊥ : EReal) := by
  simp [Ideal.ofBits, Ideal.ieee]

theorem eps_eq' : eps = ((9223372 * (2 : ℝ) ^ (-63 : ℤ) : ℝ) : EReal) := by
  simp [eps, Ideal.ofBits, Ideal.ieee, -EReal.coe_mul]

theorem eps_eq : ∃ e : ℝ, 0 < e ∧ eps = (e : EReal) :=
  ⟨_, by positivity, eps_eq'⟩

theorem negFill_lt_halfFill : negFill < halfFill := by
  rw [negFill_eq, halfFill_eq, EReal.coe_lt_coe_iff]; norm_num

theorem coe_sum {ι : Type} (s : Finset ι) (g : ι → ℝ) :
    ((∑ k ∈ s, g k : ℝ) : EReal) = ∑ k ∈ s, (g k : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) :=
  EReal.coe_strictMono.monotone.map_max

def colEquiv : Fin 8 × Fin 1024 ≃ Fin 8192 where
  toFun p := col p.1 p.2
  invFun j := (⟨j.val / 1024, by have := j.isLt; omega⟩, ⟨j.val % 1024, Nat.mod_lt _ (by norm_num)⟩)
  left_inv p := by
    rcases p with ⟨J, jj⟩
    have hJ := J.isLt
    have hjj := jj.isLt
    apply Prod.ext <;> apply Fin.ext <;> simp only [col] <;> omega
  right_inv j := by
    apply Fin.ext
    simp only [col]
    omega

theorem exists_col (j : Fin 8192) : ∃ J jj, col J jj = j :=
  ⟨_, _, colEquiv.right_inv j⟩

-- The eight tiles of 1024 columns partition the 8192 columns.
theorem sum_tiles (g : Fin 8192 → EReal) :
    ∑ J : Fin 8, ∑ jj : Fin 1024, g (col J jj) = ∑ j : Fin 8192, g j := by
  rw [← Fintype.sum_prod_type']
  exact Fintype.sum_equiv colEquiv _ _ (fun p => rfl)

theorem take_all : (List.finRange 8).take 8 = List.finRange 8 := by
  rw [List.take_of_length_le]; simp

theorem foldl_add (g : Fin 8 → EReal) (L : List (Fin 8)) (a : EReal) :
    L.foldl (fun a J => a + g J) a = a + (L.map g).sum := by
  induction L generalizing a with
  | nil => simp
  | cons J L ih => simp [ih, add_assoc]

-- Addition is commutative and associative, so the tiles' sums add up to the whole row's.
theorem posAcc_eq_posSum (f : Mat) (l : Lab) (i : Fin 8192) : posAcc f l i 8 = posSum f l i := by
  unfold posAcc posSum
  rw [take_all, foldl_add, ← Fin.sum_univ_def, zero_eq, zero_add]
  simp only [posTile, zero_eq, zero_add]
  exact sum_tiles (fun j => if isPos l i j then sim f i j else 0)

theorem foldl_max_le_iff (g : Fin 8 → EReal) (L : List (Fin 8)) (a b : EReal) :
    L.foldl (fun a J => max a (g J)) a ≤ b ↔ a ≤ b ∧ ∀ J ∈ L, g J ≤ b := by
  induction L generalizing a with
  | nil => simp
  | cons J L ih =>
    simp only [List.foldl_cons, ih, max_le_iff, List.mem_cons, forall_eq_or_imp, and_assoc]

theorem negTile_le_iff (f : Mat) (l : Lab) (i : Fin 8192) (J : Fin 8) (b : EReal) :
    negTile f l i J ≤ b ↔ ∀ jj : Fin 1024, negRow f l i (col J jj) ≤ b := by
  unfold negTile
  rw [ninf_eq, max_eq_right bot_le]
  exact ⟨fun h jj => (Finset.le_sup' (fun jj : Fin 1024 => negRow f l i (col J jj)) (Finset.mem_univ jj)).trans h,
    fun h => Finset.sup'_le _ _ fun jj _ => h jj⟩

theorem negMax_le_iff (f : Mat) (l : Lab) (i : Fin 8192) (b : EReal) :
    negMax f l i ≤ b ↔ ∀ j : Fin 8192, negRow f l i j ≤ b := by
  unfold negMax
  exact ⟨fun h j => (Finset.le_sup' (negRow f l i) (Finset.mem_univ j)).trans h,
    fun h => Finset.sup'_le _ _ fun j _ => h j⟩

theorem negRow_self (f : Mat) (l : Lab) (i : Fin 8192) : negRow f l i i = negFill := by
  simp [negRow]

-- The row's own column carries the fill, so starting the maximum from the fill changes nothing.
theorem negAcc_eq_negMax (f : Mat) (l : Lab) (i : Fin 8192) : negAcc f l i 8 = negMax f l i := by
  apply eq_of_forall_ge_iff
  intro b
  unfold negAcc
  rw [take_all, foldl_max_le_iff, negMax_le_iff]
  constructor
  · rintro ⟨_, h⟩ j
    obtain ⟨J, jj, rfl⟩ := exists_col j
    exact (negTile_le_iff f l i J b).1 (h J (List.mem_finRange J)) jj
  · intro h
    refine ⟨?_, fun J _ => (negTile_le_iff f l i J b).2 fun jj => h _⟩
    rw [← negRow_self f l i]
    exact h i

theorem negMaxR_eq_negMax (f : Mat) (l : Lab) (i : Fin 8192) : negMaxR f l i = negMax f l i := by
  unfold negMaxR negMax negRow
  congr 1
  funext j
  exact ite_not _ _ _

theorem sq_coe (x : Mat) (r : Fin 8192 → Fin 128 → ℝ) (hr : ∀ i k, x i k = (r i k : EReal)) (i : Fin 8192) :
    sq x i = ((∑ k : Fin 128, r i k * r i k : ℝ) : EReal) := by
  unfold sq
  rw [zero_eq, zero_add, coe_sum]
  refine Finset.sum_congr rfl fun k _ => ?_
  rw [hr, EReal.coe_mul]

theorem abs_le_sqrt_sum (r : Fin 128 → ℝ) (k : Fin 128) : |r k| ≤ Real.sqrt (∑ k : Fin 128, r k * r k) := by
  rw [← Real.sqrt_sq_eq_abs]
  apply Real.sqrt_le_sqrt
  rw [pow_two]
  exact Finset.single_le_sum (f := fun k => r k * r k) (fun k _ => mul_self_nonneg (r k)) (Finset.mem_univ k)

-- A normalised finite row is real with entries of absolute value at most one.
theorem nrm_real (x : Mat) (hx : Finite x) :
    ∃ u : Fin 8192 → Fin 128 → ℝ, (∀ i k, nrm x i k = (u i k : EReal)) ∧ ∀ i k, |u i k| ≤ 1 := by
  choose r hr using hx
  obtain ⟨e, he, hee⟩ := eps_eq
  refine ⟨fun i k => r i k * (1 / max (Real.sqrt (∑ k : Fin 128, r i k * r i k)) e), fun i k => ?_, fun i k => ?_⟩
  · have hS : (0 : ℝ) ≤ ∑ k : Fin 128, r i k * r i k := Finset.sum_nonneg fun k _ => mul_self_nonneg _
    have hd : max (Real.sqrt (∑ k : Fin 128, r i k * r i k)) e ≠ 0 := (lt_max_of_lt_right he).ne'
    unfold nrm
    rw [sq_coe x r hr i, Ideal.sqrt_coe, if_neg (not_lt.2 hS), hee, ← coe_max, Ideal.div_coe hd, hr, ← EReal.coe_mul]
  · have hd : 0 < max (Real.sqrt (∑ k : Fin 128, r i k * r i k)) e := lt_max_of_lt_right he
    show |r i k * (1 / max (Real.sqrt (∑ k : Fin 128, r i k * r i k)) e)| ≤ 1
    rw [mul_one_div, abs_div, abs_of_pos hd, div_le_one hd]
    exact (abs_le_sqrt_sum (r i) k).trans (le_max_left _ _)

theorem sim_real (f : Mat) (u : Fin 8192 → Fin 128 → ℝ) (hf : ∀ i k, f i k = (u i k : EReal))
    (hb : ∀ i k, |u i k| ≤ 1) (i j : Fin 8192) : ∃ s : ℝ, sim f i j = (s : EReal) ∧ -128 ≤ s := by
  refine ⟨∑ k : Fin 128, u i k * u j k, ?_, ?_⟩
  · unfold sim
    rw [coe_sum]
    refine Finset.sum_congr rfl fun k _ => ?_
    rw [hf, hf, EReal.coe_mul]
  · have h1 : ∀ k : Fin 128, (-1 : ℝ) ≤ u i k * u j k := fun k => by
      have h := abs_mul (u i k) (u j k)
      have h' : |u i k * u j k| ≤ 1 := by
        rw [h]; exact mul_le_one₀ (hb i k) (abs_nonneg _) (hb j k)
      exact (abs_le.1 h').1
    calc (-128 : ℝ) = ∑ _k : Fin 128, (-1 : ℝ) := by simp
      _ ≤ ∑ k : Fin 128, u i k * u j k := Finset.sum_le_sum fun k _ => h1 k

-- A similarity of normalised finite rows is a real no less than -128, far above half the fill.
theorem halfFill_lt_sim (x : Mat) (hx : Finite x) (i j : Fin 8192) : halfFill < sim (nrm x) i j := by
  obtain ⟨u, hu, hb⟩ := nrm_real x hx
  obtain ⟨s, hs, hs'⟩ := sim_real (nrm x) u hu hb i j
  rw [hs, halfFill_eq, EReal.coe_lt_coe_iff]
  linarith

theorem halfFill_lt_negMax_iff (f : Mat) (l : Lab) (i : Fin 8192) (hs : ∀ j, halfFill < sim f i j) :
    halfFill < negMax f l i ↔ hasNeg l i := by
  constructor
  · intro h
    by_contra hn
    have hall : ∀ j, l i = l j := fun j => by
      by_contra hj
      exact hn ⟨j, hj⟩
    have hle : negMax f l i ≤ negFill := (negMax_le_iff f l i negFill).2 fun j => by
      rw [negRow, if_pos (hall j)]
    exact absurd (h.trans_le hle) (not_lt.2 negFill_lt_halfFill.le)
  · rintro ⟨j, hj⟩
    have hrow : negRow f l i j = sim f i j := by rw [negRow, if_neg hj]
    have hle : negRow f l i j ≤ negMax f l i := (negMax_le_iff f l i _).1 le_rfl j
    exact (hrow ▸ hs j).trans_le hle

theorem zero_lt_cntE_iff (l : Lab) (i : Fin 8192) : zero < cntE l i ↔ 0 < cntN l i := by
  rw [zero_eq, cntE, ← EReal.coe_zero, EReal.coe_lt_coe_iff, Nat.cast_pos]

theorem max_cntE_one (l : Lab) (i : Fin 8192) :
    max (cntE l i) one = (((max (cntN l i) 1 : ℕ) : ℝ) : EReal) := by
  rw [one_eq, cntE, ← EReal.coe_one, ← coe_max, Nat.cast_max, Nat.cast_one]

-- For finite features the tiled row loss is the reference's.
theorem lossKT_eq_lossR (x : Mat) (l : Lab) (hx : Finite x) (i : Fin 8192) :
    lossKT (nrm x) l (cntE l) i = lossR (nrm x) l i := by
  unfold lossKT lossR lossOf
  rw [posAcc_eq_posSum, negAcc_eq_negMax, negMaxR_eq_negMax, max_cntE_one]
  have h1 : (halfFill < negMax (nrm x) l i) = hasNeg l i :=
    propext (halfFill_lt_negMax_iff (nrm x) l i (halfFill_lt_sim x hx i))
  have h2 : (zero < cntE l i) = (0 < cntN l i) := propext (zero_lt_cntE_iff l i)
  simp only [h1, h2]

end Cert.Triplet.Alg

namespace Cert.Triplet

theorem kernelVal_eq_refVal (x : Cert.Triplet.Mat) (l : Cert.Triplet.Lab) (hx : Cert.Triplet.Finite x) :
    Cert.Triplet.kernelVal x l = Cert.Triplet.refVal x l := by
  unfold kernelVal refVal
  exact congrArg meanRows (funext fun i => Alg.lossKT_eq_lossR x l hx i)

end Cert.Triplet

end
-- ==== Proof.Val.KernelValue.lean ====
import proofs.«429060_j8641474200296_2_alg».proof.Proof.KI.Fold
import proofs.«429060_j8641474200296_2_alg».proof.Proof.Val.NormValue
import proofs.«429060_j8641474200296_2_alg».proof.Proof.Val.TripValue
import proofs.«429060_j8641474200296_2_alg».proof.Proof.Val.Host
import proofs.«429060_j8641474200296_2_alg».proof.Proof.Val.Pre
import proofs.«429060_j8641474200296_2_alg».proof.Proof.Val.Algebra
import Idealize.ShloMosaic.Lib.ValueIdx

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ)

abbrev xOf (c : Dev nD) : Cert.Triplet.Mat := fun i k => m ((c : Thread nD τ).loc main_arg0) (ix2 i k)
abbrev lOf (c : Dev nD) : Cert.Triplet.Lab := fun i => m ((c : Thread nD τ).loc main_arg1) (ix1 i)

theorem entry_fnorm (c : Dev nD) (i : Fin 8192) (k : Fin 128) :
    V2 (F := Ideal) m c main_v0 (ix2 i k) = Cert.Triplet.nrm (xOf m c) i k := by
  show W2 (F := Ideal) m c (Proc.devRef .tc main_v0) (ix2 i k) = _
  rw [host_fnorm m c, W1_main_v0 m c]
  exact norm_final (V0 m) c i k

-- Under the precondition the result is the reference's value of the features and labels.
theorem kernel_value [Cert.Pre_finite_inputs.Facts] (c : Dev nD)
    (hpre : Cert.Pre_finite_inputs.fn (F := Ideal) (m ((c : Thread nD τ).loc main_arg0)) (m ((c : Thread nD τ).loc main_arg1)) = fun _ => 1#1) :
    W4 (F := Ideal) m c (Proc.devRef .tc main_v25) = fun _ => Cert.Triplet.refVal (xOf m c) (lOf m c) := by
  obtain ⟨hfin, hrng⟩ := finite_of_pre _ _ hpre
  funext j
  rw [eq_ix0 j, host_mean m c (Cert.Triplet.lossKT (Cert.Triplet.nrm (xOf m c)) (lOf m c) (Cert.Triplet.cntE (lOf m c))) (fun i => ?_)]
  · exact Cert.Triplet.kernelVal_eq_refVal (xOf m c) (lOf m c) hfin
  · rw [W3_main_v23 m c]
    exact trip_final (V2 m) c (Cert.Triplet.nrm (xOf m c)) (lOf m c) (Cert.Triplet.cntE (lOf m c))
      (entry_fnorm m c) (fun i => host_lrow m c i) (fun j => host_lcol m c j)
      (fun i => host_cnt m c (lOf m c) (fun _ => rfl) hrng i) i

end Cert.KernelIdeal.Val

end
-- ==== Proof.Val.Ref.lean ====
import proofs.«429060_j8641474200296_2_alg».proof.Proof.RefRead
import proofs.«429060_j8641474200296_2_alg».proof.Proof.Spec
import Idealize.ShloMosaic.Lib.StableHlo.Predicate
import Idealize.ShloMosaic.Lib.Pipeline.Frame
import Idealize.ShloMosaic.Lib.Affine
import Idealize.ShloMosaic.Lib.ValueIdx
import Idealize.ShloMosaic.Lib.ValueIdxRank1
import Idealize.ShloMosaic.PureOps.Reduce
import Idealize.ShloMosaic.PureOps.Ideal.Laws
import Mathlib.Data.Finset.Fold
import Mathlib.Data.Finset.Lattice.Fold
import Mathlib.Algebra.BigOperators.Group.Finset.Basic

noncomputable section

namespace Cert.ReferenceIdeal.RefFold

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

-- The n operations that follow the first a of the reference's seventy.
abbrev seg (a n : ℕ) : List (HloOp τ sig (Elt F)) := ((ValueP.ops (F := F)).drop a).take n

theorem ops_split : (ValueP.ops : List (HloOp τ sig (Elt F)))
    = seg 0 17 ++ seg 17 12 ++ seg 29 14 ++ seg 43 4 ++ seg 47 8 ++ seg 55 4 ++ seg 59 11 := rfl

-- Buffer r holds v.
abbrev Has (W : Valuation τ sig (Elt F)) (r : Ref sig .tc) (v : r.ty.Contents (Elt F)) : Prop := W (Proc.devRef .tc r) = v

variable (W : Valuation τ sig (Elt F)) (x0 : (⟨S8192x128, .f32⟩ : BufTy).Contents (Elt F)) (x1 : (⟨S8192, .i32⟩ : BufTy).Contents (Elt F))

-- Each stretch carries the stages still to be read from its entry to its exit and adds the stages it computes.
theorem st1 (h0 : Has W main_arg0 x0) (h1 : Has W main_arg1 x1) :
    Has (after (seg 0 17) W) main_v9 (val_main_v9 x0) ∧ Has (after (seg 0 17) W) main_v14 (val_main_v14 x1) := by
  refine ⟨?_, ?_⟩ <;> show after [_,_,_,_,_,_,_,_,_,_,_,_,_,_,_,_,_] W _ = _ <;> after_results
  · rw [h0]; rfl
  · rw [h1]; rfl

theorem st2 (h9 : Has W main_v9 (val_main_v9 x0)) (h14 : Has W main_v14 (val_main_v14 x1)) :
    Has (after (seg 17 12) W) main_v9 (val_main_v9 x0) ∧ Has (after (seg 17 12) W) main_v21 (val_main_v21 x1)
    ∧ Has (after (seg 17 12) W) main_v22 (val_main_v22 x1) ∧ Has (after (seg 17 12) W) main_v24 (val_main_v24 x1) := by
  refine ⟨?_, ?_, ?_, ?_⟩ <;> show after [_,_,_,_,_,_,_,_,_,_,_,_] W _ = _ <;> after_results
  · exact h9
  · rw [h14]; rfl
  · rw [h14]; rfl
  · rw [h14]; rfl

theorem st3 (h9 : Has W main_v9 (val_main_v9 x0)) (h21 : Has W main_v21 (val_main_v21 x1)) (h22 : Has W main_v22 (val_main_v22 x1))
    (h24 : Has W main_v24 (val_main_v24 x1)) :
    Has (after (seg 29 14) W) main_v9 (val_main_v9 x0) ∧ Has (after (seg 29 14) W) main_v22 (val_main_v22 x1)
    ∧ Has (after (seg 29 14) W) main_v28 (val_main_v28 x1) ∧ Has (after (seg 29 14) W) main_v32 (val_main_v32 x0 x1) := by
  refine ⟨?_, ?_, ?_, ?_⟩ <;> show after [_,_,_,_,_,_,_,_,_,_,_,_,_,_] W _ = _ <;> after_results
  · exact h9
  · exact h22
  · rw [h24]; rfl
  · rw [h21, h9, h24]; rfl

theorem st4 (h9 : Has W main_v9 (val_main_v9 x0)) (h22 : Has W main_v22 (val_main_v22 x1)) (h28 : Has W main_v28 (val_main_v28 x1))
    (h32 : Has W main_v32 (val_main_v32 x0 x1)) :
    Has (after (seg 43 4) W) main_v9 (val_main_v9 x0) ∧ Has (after (seg 43 4) W) main_v22 (val_main_v22 x1)
    ∧ Has (after (seg 43 4) W) main_v33 (val_main_v33 x0 x1) := by
  refine ⟨?_, ?_, ?_⟩ <;> show after [_,_,_,_] W _ = _ <;> after_results
  · exact h9
  · exact h22
  · show select (W (Proc.devRef .tc main_v28)) (W (Proc.devRef .tc main_v32)) _ = _
    rw [h28, h32]
    unfold val_main_v33 val_main_call1_v1 val_main_call1_v0 val_main_cst_6
    rfl

theorem st5 (h9 : Has W main_v9 (val_main_v9 x0)) (h22 : Has W main_v22 (val_main_v22 x1)) (h33 : Has W main_v33 (val_main_v33 x0 x1)) :
    Has (after (seg 47 8) W) main_v33 (val_main_v33 x0 x1) ∧ Has (after (seg 47 8) W) main_v34 (val_main_v34 x1)
    ∧ Has (after (seg 47 8) W) main_v36 (val_main_v36 x0 x1) := by
  refine ⟨?_, ?_, ?_⟩ <;> show after [_,_,_,_,_,_,_,_] W _ = _ <;> after_results
  · exact h33
  · rw [h22]; rfl
  · rw [h22, h9]; rfl

theorem st6 (h33 : Has W main_v33 (val_main_v33 x0 x1)) (h34 : Has W main_v34 (val_main_v34 x1)) (h36 : Has W main_v36 (val_main_v36 x0 x1)) :
    Has (after (seg 55 4) W) main_v33 (val_main_v33 x0 x1) ∧ Has (after (seg 55 4) W) main_v37 (val_main_v37 x0 x1) := by
  refine ⟨?_, ?_⟩ <;> show after [_,_,_,_] W _ = _ <;> after_results
  · exact h33
  · show select (W (Proc.devRef .tc main_v34)) (W (Proc.devRef .tc main_v36)) _ = _
    rw [h34, h36]
    unfold val_main_v37 val_main_call3_v1 val_main_call3_v0 val_main_cst_10
    rfl

theorem st7 (h33 : Has W main_v33 (val_main_v33 x0 x1)) (h37 : Has W main_v37 (val_main_v37 x0 x1)) :
    Has (after (seg 59 11) W) main_v43 (val_main_v43 x0 x1) := by
  show after [_,_,_,_,_,_,_,_,_,_,_] W _ = _
  after_results; rw [h37, h33]; rfl

-- After all seventy operations the result is the last stage of the two arguments.
theorem after_ops (V : Valuation τ sig (Elt F)) :
    after (ValueP.ops (F := F)) V (Proc.devRef .tc main_v43)
      = val_main_v43 (V (Proc.devRef .tc main_arg0)) (V (Proc.devRef .tc main_arg1)) := by
  rw [ops_split]
  simp only [after_append]
  obtain ⟨h9, h14⟩ := st1 V _ _ rfl rfl
  obtain ⟨h9, h21, h22, h24⟩ := st2 _ _ _ h9 h14
  obtain ⟨h9, h22, h28, h32⟩ := st3 _ _ _ h9 h21 h22 h24
  obtain ⟨h9, h22, h33⟩ := st4 _ _ _ h9 h22 h28 h32
  obtain ⟨h33, h34, h36⟩ := st5 _ _ _ h9 h22 h33
  obtain ⟨h33, h37⟩ := st6 _ _ _ h33 h34 h36
  exact st7 _ _ _ h33 h37

end Cert.ReferenceIdeal.RefFold

namespace Cert.ReferenceIdeal.RefValue

open Cert.ReferenceIdeal Cert.ReferenceIdeal.Gen Cert.ReferenceIdeal.ReadP
open Idealize.ShloMosaic Idealize.ShloMosaic.ValueIdx Idealize.ShloMosaic.TcCoe Idealize.SL.Sem
open scoped BigOperators
open Cert.Triplet

variable (x0 : (⟨S8192x128, .f32⟩ : BufTy).Contents (Elt Ideal)) (x1 : (⟨S8192, .i32⟩ : BufTy).Contents (Elt Ideal))

abbrev matOf : Mat := fun i k => x0 (ix2 i k)

abbrev labOf : Lab := fun i => x1 (ix1 i)

theorem idx_v1 (i : Fin 8192) (k : Fin 128) : idx_main_v1 (ix1 i) k = ix2 i k :=
  (eq_ix2 _).trans rfl
theorem idx_v2 (i : Fin 8192) (z : Fin 1) : idx_main_v2 (ix2 i z) = ix1 i :=
  (eq_ix1 _).trans rfl
theorem idx_v6 (i : Fin 8192) (k : Fin 128) : idx_main_v6 (ix2 i k) = ix2 i (0 : Fin 1) :=
  (eq_ix2 _).trans rfl
theorem idx_v8 (k : Fin 128) (j : Fin 8192) : idx_main_v8 (ix2 k j) = ix2 j k :=
  (eq_ix2 _).trans rfl
theorem lidx_v9 (i j : Fin 8192) (k : Fin 128) : lidx_main_v9 (ix2 i j) k = ix2 i k :=
  (eq_ix2 _).trans rfl
theorem ridx_v9 (i j : Fin 8192) (k : Fin 128) : ridx_main_v9 (ix2 i j) k = ix2 k j :=
  (eq_ix2 _).trans rfl

theorem v1_at (i : Fin 8192) : val_main_v1 x0 (ix1 i) = Triplet.sq (matOf x0) i := by
  rw [val_main_v1_apply]
  unfold Triplet.sq zero
  refine congrArg (_ + ·) (Finset.sum_congr rfl fun k _ => ?_)
  rw [val_main_v0_apply, idx_v1]
  rfl

theorem v5_at (i : Fin 8192) :
    val_main_v5 x0 (ix2 i (0 : Fin 1)) = max (Ideal.sqrt (Triplet.sq (matOf x0) i)) eps := by
  rw [val_main_v5_apply, val_main_v3_apply, val_main_v2_apply, idx_v2, v1_at, val_main_v4_apply, val_main_cst_0_apply]
  rfl

theorem v7_at (i : Fin 8192) (k : Fin 128) :
    val_main_v7 x0 (ix2 i k) = nrm (matOf x0) i k := by
  rw [val_main_v7_apply, val_main_v6_apply, idx_v6, v5_at]
  rfl

-- The similarity matrix of the normalised rows.
theorem v9_at (i j : Fin 8192) :
    val_main_v9 x0 (ix2 i j) = sim (nrm (matOf x0)) i j := by
  rw [val_main_v9_apply]
  unfold sim
  refine Finset.sum_congr rfl fun k _ => ?_
  rw [lidx_v9, ridx_v9, val_main_v8_apply, idx_v8, v7_at, v7_at]

theorem idx_v12 (i j : Fin 8192) : idx_main_v10 (idx_main_v12 (ix2 i j)) = ix1 i :=
  (eq_ix1 _).trans rfl
theorem idx_v13 (i j : Fin 8192) : idx_main_v11 (idx_main_v13 (ix2 i j)) = ix1 j :=
  (eq_ix1 _).trans rfl

theorem v12_at (i j : Fin 8192) : val_main_v12 x1 (ix2 i j) = labOf x1 i := by
  rw [val_main_v12_apply, val_main_v10_apply, idx_v12]
theorem v13_at (i j : Fin 8192) : val_main_v13 x1 (ix2 i j) = labOf x1 j := by
  rw [val_main_v13_apply, val_main_v11_apply, idx_v13]

theorem v14_iff (i j : Fin 8192) : val_main_v14 x1 (ix2 i j) = 1#1 ↔ labOf x1 i = labOf x1 j := by
  rw [val_main_v14_apply, v12_at, v13_at]
  exact StableHlo.Predicate.cmpi_eq_iff

theorem ofNat_inj_small (i j : Fin 8192) : BitVec.ofNat 32 i.val = BitVec.ofNat 32 j.val ↔ i = j := by
  constructor
  · intro h
    have h' := congrArg BitVec.toNat h
    simp only [BitVec.toNat_ofNat] at h'
    have hi := i.isLt; have hj := j.isLt
    exact Fin.ext (by omega)
  · rintro rfl; rfl

theorem v19_iff (i j : Fin 8192) : val_main_v19 (F := Ideal) (ix2 i j) = 1#1 ↔ i = j := by
  rw [val_main_v19_apply, val_main_v18_apply, val_main_v15_apply, val_main_v16_apply, val_main_v17_apply, val_main_c_apply]
  rw [StableHlo.Predicate.cmpi_eq_iff, show IntOp.addi (BitVec.ofNat 32 ((ix2 i j) 0).val) 0#32 = BitVec.ofNat 32 i.val from BitVec.add_zero _]
  exact ofNat_inj_small i j

theorem v20_iff (i j : Fin 8192) : val_main_v20 (F := Ideal) (ix2 i j) = 1#1 ↔ i ≠ j := by
  rw [val_main_v20_apply, IntOp.not_eq_one, v19_iff]

-- The positives' mask: the same label, another row.
theorem v21_iff (i j : Fin 8192) : val_main_v21 x1 (ix2 i j) = 1#1 ↔ isPos (labOf x1) i j := by
  rw [val_main_v21_apply, IntOp.andi_eq_one, v14_iff, v20_iff]
  rfl

theorem v22_iff (i j : Fin 8192) : val_main_v22 x1 (ix2 i j) = 1#1 ↔ labOf x1 i ≠ labOf x1 j := by
  rw [val_main_v22_apply, IntOp.not_eq_one, v14_iff]

theorem ij_eq_ix2 (i j : Fin 8192) : StableHlo.Predicate.ij i j = ix2 i j :=
  (eq_ix2 _).trans rfl

-- The word count of row i's positives is their number.
theorem v24_toNat (i : Fin 8192) : (val_main_v24 x1 (ix1 i)).toNat = cntN (labOf x1) i := by
  unfold val_main_v24 val_main_v23 val_main_c_1 cntN
  rw [StableHlo.Predicate.toNat_reduce_count_cols (by decide) (val_main_v21 x1) natLt_1_32
    reducesTo_S8192x8192_S8192_d1 h_S_ (ix1 i)]
  refine congrArg Finset.card (Finset.filter_congr fun q _ => ?_)
  rw [show (ix1 i) 0 = i from rfl, ij_eq_ix2, v21_iff]

theorem cntN_le (l : Lab) (i : Fin 8192) : cntN l i ≤ 8192 := by
  unfold cntN
  exact (Finset.card_le_univ _).trans (by simp)

theorem v28_iff (i : Fin 8192) : val_main_v28 x1 (ix1 i) = 1#1 ↔ 0 < cntN (labOf x1) i := by
  rw [val_main_v28_apply, val_main_v27_apply, val_main_c_4_apply]
  have h := v24_toNat x1 i
  have hle := cntN_le (labOf x1) i
  rw [StableHlo.Predicate.sgt_iff_toNat (by omega) (by decide), h]
  rfl

theorem v31_at (i : Fin 8192) :
    val_main_v31 x1 (ix1 i) = (((max (cntN (labOf x1) i) 1 : ℕ) : ℝ) : EReal) := by
  rw [val_main_v31_apply, val_main_v30_apply, val_main_v29_apply, val_main_c_5_apply]
  have h := v24_toNat x1 i
  have hle := cntN_le (labOf x1) i
  generalize val_main_v24 x1 (ix1 i) = a at h
  show (((IntOp.maxsi a 1#32).toInt : ℝ) : EReal) = _
  have ha : a.toInt = a.toNat := StableHlo.Predicate.toInt_eq_toNat_of_lt (by omega)
  have h1 : (1#32 : BitVec 32).toInt = 1 := by decide
  have hm : (IntOp.maxsi a 1#32).toInt = ((max (cntN (labOf x1) i) 1 : ℕ) : ℤ) := by
    unfold IntOp.maxsi
    split <;> rename_i hc <;> simp only [BitVec.slt, ha, h1, decide_eq_true_eq] at hc
    · rw [ha, h]; congr 1; omega
    · rw [h1]; have : max (cntN (labOf x1) i) 1 = 1 := by omega
      rw [this]; rfl
  rw [hm]; norm_cast

theorem select_of_iff {α : Type} {c : BitVec 1} {P : Prop} [Decidable P] (h : c = 1#1 ↔ P) (a b : α) :
    Scalar.select c a b = if P then a else b := if_congr h rfl rfl

theorem zero_add' (x : EReal) : zero + x = x := by
  unfold zero; rw [Ideal.ofBits_zero_f32, zero_add]

theorem ofBits_ninf : Ideal.ofBits .f32 0xFF800000#32 = (⊥ : EReal) := by
  simp [Ideal.ofBits, Ideal.ieee]

theorem red8192 : S8192x8192.Reduces [1] S8192 := by decide

theorem lift_ix (i q : Fin 8192) : red8192.lift (ix1 i) q = ix2 i q :=
  (eq_ix2 _).trans rfl

-- A commutative associative reduction along the columns is, at row i, the fold over row i's entries.
theorem reduce_rows {α : Type} (f : α → α → α) [Std.Commutative f] [Std.Associative f]
    (x : S8192x8192.Idx → α) (init : S_.Idx → α) (i : Fin 8192) :
    Host.reduce f x init reducesTo_S8192x8192_S8192_d1 h_S_ (ix1 i)
      = (Finset.univ : Finset (Fin 8192)).fold f (init (Shape.Idx.first h_S_)) (fun q => x (ix2 i q)) := by
  rw [Host.reduce_eq_fold_single f x init reducesTo_S8192x8192_S8192_d1 red8192 h_S_ (ix1 i)]
  exact congrArg (fun g : Fin 8192 → α => (Finset.univ : Finset (Fin 8192)).fold f (init (Shape.Idx.first h_S_)) g)
    (funext fun q : Fin 8192 => congrArg x (lift_ix i q))

theorem idx_v26 (i k : Fin 8192) : idx_main_v26 (ix1 i) k = ix2 i k :=
  (eq_ix2 _).trans rfl

theorem fold_ori_eq_one_iff {ι : Type} (s : Finset ι) (f : ι → BitVec 1) :
    s.fold IntOp.ori 0#1 f = 1#1 ↔ ∃ q ∈ s, f q = 1#1 := by
  induction s using Finset.cons_induction with
  | empty => simp
  | cons a s ha ih => simp only [Finset.fold_cons, IntOp.ori_eq_one, ih, Finset.mem_cons, exists_eq_or_imp]

theorem fold_max_bot {ι : Type} (s : Finset ι) (H : s.Nonempty) (f : ι → EReal) : s.fold max ⊥ f = s.sup' H f := by
  rw [Finset.sup'_eq_sup]; rfl

theorem sum_idx1 {M : Type*} [AddCommMonoid M] {n : Nat} (f : (⟨1, ![n]⟩ : Shape).Idx → M) :
    ∑ i, f i = ∑ a : Fin n, f (ix1 a) := (Equiv.sum_comp idxEquiv1.symm f).symm

theorem v25_at (i j : Fin 8192) : val_main_v25 x0 x1 (ix2 i j)
    = if isPos (labOf x1) i j then sim (nrm (matOf x0)) i j else zero := by
  rw [val_main_v25_apply, select_of_iff (v21_iff x1 i j), v9_at, val_main_call0_v1_apply, val_main_call0_v0_apply,
    val_main_cst_2_apply]
  rfl

theorem v26_at (i : Fin 8192) : val_main_v26 x0 x1 (ix1 i)
    = posSum (nrm (matOf x0)) (labOf x1) i := by
  rw [val_main_v26_apply, val_main_cst_3_apply]
  refine (zero_add' _).trans ?_
  unfold posSum
  refine Finset.sum_congr rfl fun k _ => ?_
  rw [idx_v26, v25_at]

-- The mean similarity over the positives, zero when there is none.
theorem v33_at (i : Fin 8192) : val_main_v33 x0 x1 (ix1 i)
    = if 0 < cntN (labOf x1) i
        then Ideal.div (posSum (nrm (matOf x0)) (labOf x1) i)
          (((max (cntN (labOf x1) i) 1 : ℕ) : ℝ) : EReal)
        else zero := by
  rw [val_main_v33_apply, select_of_iff (v28_iff x1 i), val_main_v32_apply, v26_at, v31_at, val_main_call1_v1_apply,
    val_main_call1_v0_apply, val_main_cst_6_apply]
  rfl

theorem v34_iff (i : Fin 8192) : val_main_v34 x1 (ix1 i) = 1#1 ↔ hasNeg (labOf x1) i := by
  unfold val_main_v34
  rw [reduce_rows, show val_main_c_7 (F := Ideal) (Shape.Idx.first h_S_) = 0#1 from rfl, fold_ori_eq_one_iff]
  simp only [Finset.mem_univ, true_and]
  exact exists_congr fun q => v22_iff x1 i q

theorem v35_at (i j : Fin 8192) : val_main_v35 x0 x1 (ix2 i j)
    = if labOf x1 i ≠ labOf x1 j then sim (nrm (matOf x0)) i j else negFill := by
  rw [val_main_v35_apply, select_of_iff (v22_iff x1 i j), v9_at, val_main_call2_v1_apply, val_main_call2_v0_apply,
    val_main_cst_8_apply]
  rfl

theorem v36_at (i : Fin 8192) : val_main_v36 x0 x1 (ix1 i)
    = negMaxR (nrm (matOf x0)) (labOf x1) i := by
  unfold val_main_v36
  rw [reduce_rows, show val_main_cst_9 (F := Ideal) (Shape.Idx.first h_S_) = (⊥ : EReal) from ofBits_ninf]
  simp only [v35_at]
  unfold negMaxR
  exact fold_max_bot _ _ _

-- The largest similarity over the negatives, zero when there is none.
theorem v37_at (i : Fin 8192) : val_main_v37 x0 x1 (ix1 i)
    = if hasNeg (labOf x1) i then negMaxR (nrm (matOf x0)) (labOf x1) i
        else zero := by
  rw [val_main_v37_apply, select_of_iff (v34_iff x1 i), v36_at, val_main_call3_v1_apply, val_main_call3_v0_apply,
    val_main_cst_10_apply]
  rfl

theorem v41_at (i : Fin 8192) : val_main_v41 x0 x1 (ix1 i)
    = lossR (nrm (matOf x0)) (labOf x1) i := by
  rw [val_main_v41_apply, val_main_v40_apply, val_main_v39_apply, val_main_v38_apply, val_main_cst_11_apply, v37_at, v33_at,
    val_main_call4_v0_apply, val_main_call4_cst_apply]
  rfl

-- The result is the mean of the reference's row losses of the normalised rows.
theorem v43_at : val_main_v43 x0 x1 ix0 = refVal (matOf x0) (labOf x1) := by
  rw [val_main_v43_apply, val_main_v42_apply, val_main_cst_12_apply, val_main_cst_13_apply, sum_idx1]
  unfold refVal meanRows
  simp only [v41_at]
  rfl

theorem ref_value (m : (ℓ : Loc nD τ sig) → Buf (Elt Ideal) ℓ) (c : Dev nD) :
    StableHlo.after (Cert.ReferenceIdeal.ValueP.ops (F := Ideal)) (StableHlo.launchContents m c) (Proc.devRef .tc main_v43)
      = fun _ => Cert.Triplet.refVal (fun i k => m ((c.tc : Thread nD τ).loc main_arg0) (ix2 i k))
          (fun i => m ((c.tc : Thread nD τ).loc main_arg1) (ix1 i)) := by
  rw [Cert.ReferenceIdeal.RefFold.after_ops]
  funext j
  rw [eq_ix0 j]
  exact v43_at _ _

end Cert.ReferenceIdeal.RefValue

end
-- ==== Proof.lean ====
import proofs.«429060_j8641474200296_2_alg».proof.Defs
import proofs.«429060_j8641474200296_2_alg».proof.Proof.Gen.Kernel
import proofs.«429060_j8641474200296_2_alg».proof.Proof.Gen.KernelIdeal
import proofs.«429060_j8641474200296_2_alg».proof.Proof.Gen.ReferenceIdeal
import proofs.«429060_j8641474200296_2_alg».proof.Proof.Gen.Pre_finite_inputs
import proofs.«429060_j8641474200296_2_alg».proof.Proof.K.Launch
import proofs.«429060_j8641474200296_2_alg».proof.Proof.KI.Launch
import proofs.«429060_j8641474200296_2_alg».proof.Proof.Val.KernelValue
import proofs.«429060_j8641474200296_2_alg».proof.Proof.Val.Ref
import Idealize.ShloMosaic.PureOps.BitExact
import Idealize.ShloMosaic.PureOps.Ideal
import Idealize.ShloMosaic.Adequacy
import Idealize.ShloMosaic.Init

noncomputable section

namespace Cert.Proof

open Idealize.ShloMosaic Idealize.ShloMosaic.TcCoe Idealize.ShloMosaic.ValueIdx Idealize.SL.Sem

/-- Each program's frame is its run with everything but the arguments dropped. -/
theorem frame_k : Cert.frame_Kernel := fun m ρ _ =>
  (θ_run Cert.Kernel.defs _ _).mono (fun _ h c =>
      ⟨(h c _ (Cert.Kernel.Hand.mem_uc Cert.Kernel.main_arg0 (by decide))).trans (Cert.Kernel.Hand.W4_main_arg0 m c),
       (h c _ (Cert.Kernel.Hand.mem_uc Cert.Kernel.main_arg1 (by decide))).trans (Cert.Kernel.Hand.W4_main_arg1 m c)⟩)
    (Cert.Kernel.Hand.run_all (F := Bits) m ρ)

theorem frame_ki : Cert.frame_KernelIdeal := fun m ρ _ =>
  (θ_run Cert.KernelIdeal.defs _ _).mono (fun _ h c =>
      ⟨(h c _ (Cert.KernelIdeal.Hand.mem_uc Cert.KernelIdeal.main_arg0 (by decide))).trans (Cert.KernelIdeal.Hand.W4_main_arg0 m c),
       (h c _ (Cert.KernelIdeal.Hand.mem_uc Cert.KernelIdeal.main_arg1 (by decide))).trans (Cert.KernelIdeal.Hand.W4_main_arg1 m c)⟩)
    (Cert.KernelIdeal.Hand.run_all (F := Ideal) m ρ)

theorem frame_r : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the reference's value of the launch features and labels. -/
theorem algebraic : Cert.algebraic_KernelIdeal_ReferenceIdeal := by
  intro m ρ m' ρ' hpre hagree
  refine ⟨fun c => fun _ => Cert.Triplet.refVal (Cert.KernelIdeal.Val.xOf m c) (Cert.KernelIdeal.Val.lOf m c), ?_, ?_⟩
  · refine (θ_run Cert.KernelIdeal.defs _ _).mono (fun r h c => ⟨?_, ?_, ?_⟩) (Cert.KernelIdeal.Hand.run_all (F := Ideal) m ρ)
    · exact (h c _ (Cert.KernelIdeal.Hand.mem_uc Cert.KernelIdeal.main_v25 (by decide))).trans (Cert.KernelIdeal.Val.kernel_value m c (hpre c))
    · exact (h c _ (Cert.KernelIdeal.Hand.mem_uc Cert.KernelIdeal.main_arg0 (by decide))).trans (Cert.KernelIdeal.Hand.W4_main_arg0 m c)
    · exact (h c _ (Cert.KernelIdeal.Hand.mem_uc Cert.KernelIdeal.main_arg1 (by decide))).trans (Cert.KernelIdeal.Hand.W4_main_arg1 m c)
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.ref_value m' c]
    unfold Cert.KernelIdeal.Val.xOf Cert.KernelIdeal.Val.lOf
    rw [(hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
